-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4 : Shape := ⟨2, ![1024, 4]⟩
abbrev S1024x64 : Shape := ⟨2, ![1024, 64]⟩
abbrev S1024x1024 : Shape := ⟨2, ![1024, 1024]⟩
abbrev S1 : Shape := ⟨1, ![1]⟩
abbrev S4x64 : Shape := ⟨2, ![4, 64]⟩
abbrev S2x20000 : Shape := ⟨2, ![2, 20000]⟩
abbrev S4x20000 : Shape := ⟨2, ![4, 20000]⟩
abbrev S3x40000 : Shape := ⟨2, ![3, 40000]⟩
abbrev S4x40000 : Shape := ⟨2, ![4, 40000]⟩
abbrev S4x60000 : Shape := ⟨2, ![4, 60000]⟩
abbrev S1024 : Shape := ⟨1, ![1024]⟩
abbrev S_ : Shape := ⟨0, ![]⟩

class Facts : Prop where
  bcast_S_S1024x4 : S_.BroadcastsInDim S1024x4 (![] : Fin 0 → Fin S1024x4.rank)
  reducesTo_S1024x4_S_d0_1 : S1024x4.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1 : S_.BroadcastsInDim S1 (![] : Fin 0 → Fin S1.rank)
  reducesTo_S1_S_d0 : S1.ReducesTo [0] S_
  bcast_S_S4x64 : S_.BroadcastsInDim S4x64 (![] : Fin 0 → Fin S4x64.rank)
  reducesTo_S4x64_S_d0_1 : S4x64.ReducesTo [0, 1] S_
  bcast_S_S4x20000 : S_.BroadcastsInDim S4x20000 (![] : Fin 0 → Fin S4x20000.rank)
  reducesTo_S4x20000_S_d0_1 : S4x20000.ReducesTo [0, 1] S_
  bcast_S_S4x40000 : S_.BroadcastsInDim S4x40000 (![] : Fin 0 → Fin S4x40000.rank)
  reducesTo_S4x40000_S_d0_1 : S4x40000.ReducesTo [0, 1] S_
  bcast_S_S4x60000 : S_.BroadcastsInDim S4x60000 (![] : Fin 0 → Fin S4x60000.rank)
  reducesTo_S4x60000_S_d0_1 : S4x60000.ReducesTo [0, 1] S_
  bcast_S_S2x20000 : S_.BroadcastsInDim S2x20000 (![] : Fin 0 → Fin S2x20000.rank)
  reducesTo_S2x20000_S_d0_1 : S2x20000.ReducesTo [0, 1] S_
  bcast_S_S3x40000 : S_.BroadcastsInDim S3x40000 (![] : Fin 0 → Fin S3x40000.rank)
  reducesTo_S3x40000_S_d0_1 : S3x40000.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg9 : IVec S4x60000 32) (main_arg12 : IVec S1024 32) (main_v45 : IVec S_ 1) (main_v50 : IVec S3x40000 1) : IVec S_ 1 :=
  let main_c_19 : IVec S_ 1 := constantI S_ 1 1#1
  let main_v51 : IVec S_ 1 := (fun x v => Host.reduce IntOp.andi x v reducesTo_S3x40000_S_d0_1 h_S_) main_v50 main_c_19
  let main_v52 : IVec S_ 1 := andi main_v45 main_v51
  let main_c_20 : IVec S_ 32 := constantI S_ 32 0#32
  let main_v53 : IVec S4x60000 32 := broadcastInDim S4x60000 ![] bcast_S_S4x60000 main_c_20
  let main_v54 : IVec S4x60000 1 := cmpi .sge main_arg9 main_v53
  let main_c_21 : IVec S_ 32 := constantI S_ 32 1024#32
  let main_v55 : IVec S4x60000 32 := broadcastInDim S4x60000 ![] bcast_S_S4x60000 main_c_21
  let main_v56 : IVec S4x60000 1 := cmpi .slt main_arg9 main_v55
  let main_v57 : IVec S4x60000 1 := andi main_v54 main_v56
  let main_c_22 : IVec S_ 1 := constantI S_ 1 1#1
  let main_v58 : IVec S_ 1 := (fun x v => Host.reduce IntOp.andi x v reducesTo_S4x60000_S_d0_1 h_S_) main_v57 main_c_22
  let main_v59 : IVec S_ 1 := andi main_v52 main_v58
  let main_c_23 : IVec S_ 32 := constantI S_ 32 0#32
  let main_v60 : IVec S1024 32 := broadcastInDim S1024 ![] bcast_S_S1024 main_c_23
  let main_v61 : IVec S1024 1 := cmpi .sge main_arg12 main_v60
  let main_c_24 : IVec S_ 32 := constantI S_ 32 4#32
  let main_v62 : IVec S1024 32 := broadcastInDim S1024 ![] bcast_S_S1024 main_c_24
  let main_v63 : IVec S1024 1 := cmpi .slt main_arg12 main_v62
  let main_v64 : IVec S1024 1 := andi main_v61 main_v63
  let main_c_25 : IVec S_ 1 := constantI S_ 1 1#1
  let main_v65 : IVec S_ 1 := (fun x v => Host.reduce IntOp.andi x v reducesTo_S1024_S_d0 h_S_) main_v64 main_c_25
  let main_v66 : IVec S_ 1 := andi main_v59 main_v65
  main_v66

def fn_part2 {F : FTy → Type} [FloatOps F] (main_arg5 : IVec S2x20000 32) (main_arg7 : IVec S3x40000 32) (main_arg9 : IVec S4x60000 32) (main_arg10 : FVec F S4x60000 .f32) (main_arg12 : IVec S1024 32) (main_v33 : IVec S_ 1) : IVec S_ 1 :=
  let main_v34 : FVec F S4x60000 .f32 := Host.absf main_arg10
  let main_cst_12 : FVec F S_ .f32 := constant S_ .f32 0x7F800000#32
  let main_v35 : FVec F S4x60000 .f32 := broadcastInDim S4x60000 ![] bcast_S_S4x60000 main_cst_12
  let main_v36 : IVec S4x60000 1 := cmpf .olt main_v34 main_v35
  let main_c_13 : IVec S_ 1 := constantI S_ 1 1#1
  let main_v37 : IVec S_ 1 := (fun x v => Host.reduce IntOp.andi x v reducesTo_S4x60000_S_d0_1 h_S_) main_v36 main_c_13
  let main_v38 : IVec S_ 1 := andi main_v33 main_v37
  let main_c_14 : IVec S_ 32 := constantI S_ 32 0#32
  let main_v39 : IVec S2x20000 32 := broadcastInDim S2x20000 ![] bcast_S_S2x20000 main_c_14
  let main_v40 : IVec S2x20000 1 := cmpi .sge main_arg5 main_v39
  let main_c_15 : IVec S_ 32 := constantI S_ 32 1024#32
  let main_v41 : IVec S2x20000 32 := broadcastInDim S2x20000 ![] bcast_S_S2x20000 main_c_15
  let main_v42 : IVec S2x20000 1 := cmpi .slt main_arg5 main_v41
  let main_v43 : IVec S2x20000 1 := andi main_v40 main_v42
  let main_c_16 : IVec S_ 1 := constantI S_ 1 1#1
  let main_v44 : IVec S_ 1 := (fun x v => Host.reduce IntOp.andi x v reducesTo_S2x20000_S_d0_1 h_S_) main_v43 main_c_16
  let main_v45 : IVec S_ 1 := andi main_v38 main_v44
  let main_c_17 : IVec S_ 32 := constantI S_ 32 0#32
  let main_v46 : IVec S3x40000 32 := broadcastInDim S3x40000 ![] bcast_S_S3x40000 main_c_17
  let main_v47 : IVec S3x40000 1 := cmpi .sge main_arg7 main_v46
  let main_c_18 : IVec S_ 32 := constantI S_ 32 1024#32
  let main_v48 : IVec S3x40000 32 := broadcastInDim S3x40000 ![] bcast_S_S3x40000 main_c_18
  let main_v49 : IVec S3x40000 1 := cmpi .slt main_arg7 main_v48
  let main_v50 : IVec S3x40000 1 := andi main_v47 main_v49
  fn_part3 (F := F) main_arg9 main_arg12 main_v45 main_v50

def fn_part1 {F : FTy → Type} [FloatOps F] (main_arg4 : FVec F S4x64 .f32) (main_arg5 : IVec S2x20000 32) (main_arg6 : FVec F S4x20000 .f32) (main_arg7 : IVec S3x40000 32) (main_arg8 : FVec F S4x40000 .f32) (main_arg9 : IVec S4x60000 32) (main_arg10 : FVec F S4x60000 .f32) (main_arg12 : IVec S1024 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S4x64 .f32 := Host.absf main_arg4
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x20000 .f32 := Host.absf main_arg6
  let main_cst_8 : FVec F S_ .f32 := constant S_ .f32 0x7F800000#32
  let main_v25 : FVec F S4x20000 .f32 := broadcastInDim S4x20000 ![] bcast_S_S4x20000 main_cst_8
  let main_v26 : IVec S4x20000 1 := cmpf .olt main_v24 main_v25
  let main_c_9 : IVec S_ 1 := constantI S_ 1 1#1
  let main_v27 : IVec S_ 1 := (fun x v => Host.reduce IntOp.andi x v reducesTo_S4x20000_S_d0_1 h_S_) main_v26 main_c_9
  let main_v28 : IVec S_ 1 := andi main_v23 main_v27
  let main_v29 : FVec F S4x40000 .f32 := Host.absf main_arg8
  let main_cst_10 : FVec F S_ .f32 := constant S_ .f32 0x7F800000#32
  let main_v30 : FVec F S4x40000 .f32 := broadcastInDim S4x40000 ![] bcast_S_S4x40000 main_cst_10
  let main_v31 : IVec S4x40000 1 := cmpf .olt main_v29 main_v30
  let main_c_11 : IVec S_ 1 := constantI S_ 1 1#1
  let main_v32 : IVec S_ 1 := (fun x v => Host.reduce IntOp.andi x v reducesTo_S4x40000_S_d0_1 h_S_) main_v31 main_c_11
  let main_v33 : IVec S_ 1 := andi main_v28 main_v32
  fn_part2 (F := F) main_arg5 main_arg7 main_arg9 main_arg10 main_arg12 main_v33

def fn {F : FTy → Type} [FloatOps F] (main_arg0 : FVec F S1024x4 .f32) (main_arg1 : FVec F S1024x64 .f32) (main_arg2 : FVec F S1024x1024 .f32) (main_arg3 : FVec F S1 .f32) (main_arg4 : FVec F S4x64 .f32) (main_arg5 : IVec S2x20000 32) (main_arg6 : FVec F S4x20000 .f32) (main_arg7 : IVec S3x40000 32) (main_arg8 : FVec F S4x40000 .f32) (main_arg9 : IVec S4x60000 32) (main_arg10 : FVec F S4x60000 .f32) (main_arg11 : IVec S1024 32) (main_arg12 : IVec S1024 32) : IVec S_ 1 :=
  let main_v0 : FVec F S1024x4 .f32 := Host.absf main_arg0
  let main_cst : FVec F S_ .f32 := constant S_ .f32 0x7F800000#32
  let main_v1 : FVec F S1024x4 .f32 := broadcastInDim S1024x4 ![] bcast_S_S1024x4 main_cst
  let main_v2 : IVec S1024x4 1 := cmpf .olt main_v0 main_v1
  let main_c : IVec S_ 1 := constantI S_ 1 1#1
  let main_v3 : IVec S_ 1 := (fun x v => Host.reduce IntOp.andi x v reducesTo_S1024x4_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_arg7 main_arg8 main_arg9 main_arg10 main_arg12 main_v13 main_v16
-- ==== Kernel.lean ====
abbrev S1024x4 : Shape := ⟨2, ![1024, 4]⟩
abbrev S1024x64 : Shape := ⟨2, ![1024, 64]⟩
abbrev S1024x1024 : Shape := ⟨2, ![1024, 1024]⟩
abbrev S1 : Shape := ⟨1, ![1]⟩
abbrev S4x64 : Shape := ⟨2, ![4, 64]⟩
abbrev S2x20000 : Shape := ⟨2, ![2, 20000]⟩
abbrev S4x20000 : Shape := ⟨2, ![4, 20000]⟩
abbrev S3x40000 : Shape := ⟨2, ![3, 40000]⟩
abbrev S4x40000 : Shape := ⟨2, ![4, 40000]⟩
abbrev S4x60000 : Shape := ⟨2, ![4, 60000]⟩
abbrev S1024 : Shape := ⟨1, ![1024]⟩
abbrev S_ : Shape := ⟨0, ![]⟩
abbrev S1024x1 : Shape := ⟨2, ![1024, 1]⟩
abbrev S2x480 : Shape := ⟨2, ![2, 480]⟩
abbrev S2x20480 : Shape := ⟨2, ![2, 20480]⟩
abbrev S4x480 : Shape := ⟨2, ![4, 480]⟩
abbrev S4x20480 : Shape := ⟨2, ![4, 20480]⟩
abbrev S2x1024x4 : Shape := ⟨3, ![2, 1024, 4]⟩
abbrev S2x1024 : Shape := ⟨2, ![2, 1024]⟩
abbrev S4x1024 : Shape := ⟨2, ![4, 1024]⟩
abbrev S1x1024x4 : Shape := ⟨3, ![1, 1024, 4]⟩
abbrev S1x1024 : Shape := ⟨2, ![1, 1024]⟩
abbrev S3x960 : Shape := ⟨2, ![3, 960]⟩
abbrev S3x40960 : Shape := ⟨2, ![3, 40960]⟩
abbrev S4x960 : Shape := ⟨2, ![4, 960]⟩
abbrev S4x40960 : Shape := ⟨2, ![4, 40960]⟩
abbrev S3x1024 : Shape := ⟨2, ![3, 1024]⟩
abbrev S4x1440 : Shape := ⟨2, ![4, 1440]⟩
abbrev S4x61440 : Shape := ⟨2, ![4, 61440]⟩
abbrev S1024x1x1 : Shape := ⟨3, ![1024, 1, 1]⟩
abbrev S1x1x1 : Shape := ⟨3, ![1, 1, 1]⟩
abbrev S1024x5 : Shape := ⟨2, ![1024, 5]⟩

abbrev nBuf : Space → Nat
  | .hbm => 141
  | .vmem => 24
  | .smem => 0
  | _ => 0

abbrev hbmTy0_0 (i : Nat) : BufTy := match i % 128 with
  | 0 => ⟨S1024x4, .f32⟩
  | 1 => ⟨S1024x64, .f32⟩
  | 2 => ⟨S1024x1024, .f32⟩
  | 3 => ⟨S1, .f32⟩
  | 4 => ⟨S4x64, .f32⟩
  | 5 => ⟨S2x20000, .i32⟩
  | 6 => ⟨S4x20000, .f32⟩
  | 7 => ⟨S3x40000, .i32⟩
  | 8 => ⟨S4x40000, .f32⟩
  | 9 => ⟨S4x60000, .i32⟩
  | 10 => ⟨S4x60000, .f32⟩
  | 11 => ⟨S1024, .i32⟩
  | 12 => ⟨S1024, .i32⟩
  | 13 => ⟨S_, .f32⟩
  | 14 => ⟨S1024, .f32⟩
  | 15 => ⟨S_, .f32⟩
  | 16 => ⟨S1024, .f32⟩
  | 17 => ⟨S1024, .f32⟩
  | 18 => ⟨S_, .i32⟩
  | 19 => ⟨S1024, .i32⟩
  | 20 => ⟨S1024, .i1⟩
  | 21 => ⟨S_, .i32⟩
  | 22 => ⟨S1024, .i32⟩
  | 23 => ⟨S1024, .i32⟩
  | 24 => ⟨S1024, .i32⟩
  | 25 => ⟨S1024x1, .i32⟩
  | 26 => ⟨S1024x64, .f32⟩
  | 27 => ⟨S1024x64, .f32⟩
  | 28 => ⟨S_, .f32⟩
  | 29 => ⟨S1024, .f32⟩
  | 30 => ⟨S1024x1024, .bf16⟩
  | 31 => ⟨S1024x1024, .f32⟩
  | 32 => ⟨S1024x1024, .f32⟩
  | 33 => ⟨S1024x1024, .bf16⟩
  | 34 => ⟨S_, .i32⟩
  | 35 => ⟨S2x480, .i32⟩
  | 36 => ⟨S2x20480, .i32⟩
  | 37 => ⟨S_, .f32⟩
  | 38 => ⟨S4x480, .f32⟩
  | 39 => ⟨S4x20480, .f32⟩
  | 40 => ⟨S2x1024x4, .f32⟩
  | 41 => ⟨S_, .f32⟩
  | 42 => ⟨S1024x4, .f32⟩
  | 43 => ⟨S_, .i32⟩
  | 44 => ⟨S3x960, .i32⟩
  | 45 => ⟨S3x40960, .i32⟩
  | 46 => ⟨S_, .f32⟩
  | 47 => ⟨S4x960, .f32⟩
  | 48 => ⟨S4x40960, .f32⟩
  | 49 => ⟨S2x1024x4, .f32⟩
  | 50 => ⟨S_, .f32⟩
  | 51 => ⟨S1024x4, .f32⟩
  | 52 => ⟨S_, .i32⟩
  | 53 => ⟨S4x1440, .i32⟩
  | 54 => ⟨S4x61440, .i32⟩
  | 55 => ⟨S_, .f32⟩
  | 56 => ⟨S4x1440, .f32⟩
  | 57 => ⟨S4x61440, .f32⟩
  | 58 => ⟨S2x1024x4, .f32⟩
  | 59 => ⟨S_, .f32⟩
  | 60 => ⟨S1024x4, .f32⟩
  | 61 => ⟨S1024x1, .i32⟩
  | 62 => ⟨S_, .i32⟩
  | 63 => ⟨S1024x1, .i32⟩
  | 64 => ⟨S1024x1, .i1⟩
  | 65 => ⟨S_, .i32⟩
  | 66 => ⟨S1024x1, .i32⟩
  | 67 => ⟨S1024x1, .i32⟩
  | 68 => ⟨S1024x1, .i32⟩
  | 69 => ⟨S1024x1x1, .i32⟩
  | 70 => ⟨S1, .i32⟩
  | 71 => ⟨S_, .i32⟩
  | 72 => ⟨S1024x1x1, .i32⟩
  | 73 => ⟨S1024x1x1, .i1⟩
  | 74 => ⟨S1x1x1, .i32⟩
  | 75 => ⟨S1024x1x1, .i32⟩
  | 76 => ⟨S1024x1x1, .i1⟩
  | 77 => ⟨S1024x1x1, .i1⟩
  | 78 => ⟨S_, .i1⟩
  | 79 => ⟨S1024x1, .i1⟩
  | 80 => ⟨S1024x1, .f32⟩
  | 81 => ⟨S_, .f32⟩
  | 82 => ⟨S1024x1, .f32⟩
  | 83 => ⟨S1024x1, .f32⟩
  | 84 => ⟨S1024, .f32⟩
  | 85 => ⟨S1024x1, .i32⟩
  | 86 => ⟨S_, .i32⟩
  | 87 => ⟨S1024x1, .i32⟩
  | 88 => ⟨S1024x1, .i1⟩
  | 89 => ⟨S_, .i32⟩
  | 90 => ⟨S1024x1, .i32⟩
  | 91 => ⟨S1024x1, .i32⟩
  | 92 => ⟨S1024x1, .i32⟩
  | 93 => ⟨S1024x1x1, .i32⟩
  | 94 => ⟨S1, .i32⟩
  | 95 => ⟨S_, .i32⟩
  | 96 => ⟨S1024x1x1, .i32⟩
  | 97 => ⟨S1024x1x1, .i1⟩
  | 98 => ⟨S1x1x1, .i32⟩
  | 99 => ⟨S1024x1x1, .i32⟩
  | 100 => ⟨S1024x1x1, .i1⟩
  | 101 => ⟨S1024x1x1, .i1⟩
  | 102 => ⟨S_, .i1⟩
  | 103 => ⟨S1024x1, .i1⟩
  | 104 => ⟨S1024x1, .f32⟩
  | 105 => ⟨S_, .f32⟩
  | 106 => ⟨S1024x1, .f32⟩
  | 107 => ⟨S1024x1, .f32⟩
  | 108 => ⟨S1024, .f32⟩
  | 109 => ⟨S1024x1, .i32⟩
  | 110 => ⟨S_, .i32⟩
  | 111 => ⟨S1024x1, .i32⟩
  | 112 => ⟨S1024x1, .i1⟩
  | 113 => ⟨S_, .i32⟩
  | 114 => ⟨S1024x1, .i32⟩
  | 115 => ⟨S1024x1, .i32⟩
  | 116 => ⟨S1024x1, .i32⟩
  | 117 => ⟨S1024x1x1, .i32⟩
  | 118 => ⟨S1, .i32⟩
  | 119 => ⟨S_, .i32⟩
  | 120 => ⟨S1024x1x1, .i32⟩
  | 121 => ⟨S1024x1x1, .i1⟩
  | 122 => ⟨S1x1x1, .i32⟩
  | 123 => ⟨S1024x1x1, .i32⟩
  | 124 => ⟨S1024x1x1, .i1⟩
  | 125 => ⟨S1024x1x1, .i1⟩
  | 126 => ⟨S_, .i1⟩
  | 127 => ⟨S1024x1, .i1⟩
  | _ => ⟨S1024x4, .f32⟩

abbrev hbmTy0_1 (i : Nat) : BufTy := match i % 128 with
  | 0 => ⟨S1024x1, .f32⟩
  | 1 => ⟨S_, .f32⟩
  | 2 => ⟨S1024x1, .f32⟩
  | 3 => ⟨S1024x1, .f32⟩
  | 4 => ⟨S1024, .f32⟩
  | 5 => ⟨S1024x1, .f32⟩
  | 6 => ⟨S1024x1, .f32⟩
  | 7 => ⟨S1024x1, .f32⟩
  | 8 => ⟨S1024x1, .f32⟩
  | 9 => ⟨S1024x1, .f32⟩
  | 10 => ⟨S1024x5, .f32⟩
  | 11 => ⟨S_, .f32⟩
  | 12 => ⟨S_, .f32⟩
  | _ => ⟨S1024x4, .f32⟩

abbrev hbmTy (i : Nat) : BufTy := match i / 128 with
  | 0 => hbmTy0_0 i
  | 1 => hbmTy0_1 i
  | _ => ⟨S1024x4, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S2x1024, .i32⟩
  | .local _ .vmem, ⟨3, _⟩ => ⟨S2x1024, .i32⟩
  | .local _ .vmem, ⟨4, _⟩ => ⟨S4x1024, .f32⟩
  | .local _ .vmem, ⟨5, _⟩ => ⟨S4x1024, .f32⟩
  | .local _ .vmem, ⟨6, _⟩ => ⟨S1x1024x4, .f32⟩
  | .local _ .vmem, ⟨7, _⟩ => ⟨S1x1024x4, .f32⟩
  | .local _ .vmem, ⟨8, _⟩ => ⟨S1024x1024, .bf16⟩
  | .local _ .vmem, ⟨9, _⟩ => ⟨S1024x1024, .bf16⟩
  | .local _ .vmem, ⟨10, _⟩ => ⟨S3x1024, .i32⟩
  | .local _ .vmem, ⟨11, _⟩ => ⟨S3x1024, .i32⟩
  | .local _ .vmem, ⟨12, _⟩ => ⟨S4x1024, .f32⟩
  | .local _ .vmem, ⟨13, _⟩ => ⟨S4x1024, .f32⟩
  | .local _ .vmem, ⟨14, _⟩ => ⟨S1x1024x4, .f32⟩
  | .local _ .vmem, ⟨15, _⟩ => ⟨S1x1024x4, .f32⟩
  | .local _ .vmem, ⟨16, _⟩ => ⟨S1024x1024, .bf16⟩
  | .local _ .vmem, ⟨17, _⟩ => ⟨S1024x1024, .bf16⟩
  | .local _ .vmem, ⟨18, _⟩ => ⟨S4x1024, .i32⟩
  | .local _ .vmem, ⟨19, _⟩ => ⟨S4x1024, .i32⟩
  | .local _ .vmem, ⟨20, _⟩ => ⟨S4x1024, .f32⟩
  | .local _ .vmem, ⟨21, _⟩ => ⟨S4x1024, .f32⟩
  | .local _ .vmem, ⟨22, _⟩ => ⟨S1x1024x4, .f32⟩
  | .local _ .vmem, ⟨23, _⟩ => ⟨S1x1024x4, .f32⟩
  | _, _ => ⟨S1024x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_c_8 : Ref sig .tc := ⟨.hbm, 52, rfl⟩
abbrev main_v29 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_10 : Ref sig .tc := ⟨.hbm, 59, rfl⟩
abbrev main_v34 : Ref sig .tc := ⟨.hbm, 60, rfl⟩
abbrev main_v35 : Ref sig .tc := ⟨.hbm, 61, rfl⟩
abbrev main_call0_c : Ref sig .tc := ⟨.hbm, 62, rfl⟩
abbrev main_call0_v0 : Ref sig .tc := ⟨.hbm, 63, rfl⟩
abbrev main_call0_v1 : Ref sig .tc := ⟨.hbm, 64, rfl⟩
abbrev main_call0_c_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_c_1 : Ref sig .tc := ⟨.hbm, 70, rfl⟩
abbrev main_call0_c_2 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_c_3 : Ref sig .tc := ⟨.hbm, 78, rfl⟩
abbrev main_call0_v12 : Ref sig .tc := ⟨.hbm, 79, rfl⟩
abbrev main_call0_v13 : Ref sig .tc := ⟨.hbm, 80, rfl⟩
abbrev main_call0_cst : Ref sig .tc := ⟨.hbm, 81, rfl⟩
abbrev main_call0_v14 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_call1_c : Ref sig .tc := ⟨.hbm, 86, rfl⟩
abbrev main_call1_v0 : Ref sig .tc := ⟨.hbm, 87, rfl⟩
abbrev main_call1_v1 : Ref sig .tc := ⟨.hbm, 88, rfl⟩
abbrev main_call1_c_0 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_c_1 : Ref sig .tc := ⟨.hbm, 94, rfl⟩
abbrev main_call1_c_2 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_c_3 : Ref sig .tc := ⟨.hbm, 102, rfl⟩
abbrev main_call1_v12 : Ref sig .tc := ⟨.hbm, 103, rfl⟩
abbrev main_call1_v13 : Ref sig .tc := ⟨.hbm, 104, rfl⟩
abbrev main_call1_cst : Ref sig .tc := ⟨.hbm, 105, rfl⟩
abbrev main_call1_v14 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_cst : Ref sig .tc := ⟨.hbm, 129, rfl⟩
abbrev main_call2_v14 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_cst_11 : Ref sig .tc := ⟨.hbm, 139, rfl⟩
abbrev main_v50 : Ref sig .tc := ⟨.hbm, 140, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 20], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1024x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S3x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![2, 30], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let c0_i32_0 : BitVec 32 := 0#32
  ![c0_i32.toNat, v1.toNat]

def cc2_transform_3 (i : grid2.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let c0_i32_0 : BitVec 32 := 0#32
  ![c0_i32.toNat, v1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S1024x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S4x1024 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S4x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024x4 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  reducesTo_S1024x4_S1024_d1 : S1024x4.ReducesTo [1] S1024
  h_S_ : 0 < S_.numel
  shapeCasts_S1_S_ : S1.ShapeCasts S_
  bcast_S_S1024 : S_.BroadcastsInDim S1024 (![] : Fin 0 → Fin S1024.rank)
  bcast_S1024_S1024x1_0 : S1024.BroadcastsInDim S1024x1 (![0] : Fin 1 → Fin S1024x1.rank)
  reducesTo_S1024x64_S1024_d1 : S1024x64.ReducesTo [1] S1024
  bitsLt_bf16_f32 : FTy.bits .bf16 < FTy.bits .f32
  bcast_S_S2x480 : S_.BroadcastsInDim S2x480 (![] : Fin 0 → Fin S2x480.rank)
  concatenates_S2x20000_S2x480_S2x20480_d1 : Shape.Concatenates [S2x20000, S2x480] S2x20480 1
  bcast_S_S4x480 : S_.BroadcastsInDim S4x480 (![] : Fin 0 → Fin S4x480.rank)
  concatenates_S4x20000_S4x480_S4x20480_d1 : Shape.Concatenates [S4x20000, S4x480] S4x20480 1
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  shapeCasts_S1024x4_S1x1024x4 : S1024x4.ShapeCasts S1x1024x4
  iota_S1024x1024_d0_w32 : S1024x1024.Iotas .tc 32 [0]
  inb_S2x1024_S1x1024_0_0 : ∀ a, (![0, 0] : Fin 2 → Nat) a + S1x1024.size a ≤ S2x1024.size a
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2x1024_S1x1024_1_0 : ∀ a, (![1, 0] : Fin 2 → Nat) a + S1x1024.size a ≤ S2x1024.size a
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  slices_S4x1024_o0_0_S1x1024 : S4x1024.Slices ![0, 0] S1x1024
  reduces_S1024x1024_S1024 : S1024x1024.Reduces [1] S1024
  shapeCasts_S1024_S1024x1 : S1024.ShapeCasts S1024x1
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  concatenates_S1024x1_S1024x1_S1024x1_S1024x1_S1024x4_d1 : Shape.Concatenates [S1024x1, S1024x1, S1024x1, S1024x1] S1024x4 1
  reducesTo_S2x1024x4_S1024x4_d0 : S2x1024x4.ReducesTo [0] S1024x4
  bcast_S_S3x960 : S_.BroadcastsInDim S3x960 (![] : Fin 0 → Fin S3x960.rank)
  concatenates_S3x40000_S3x960_S3x40960_d1 : Shape.Concatenates [S3x40000, S3x960] S3x40960 1
  bcast_S_S4x960 : S_.BroadcastsInDim S4x960 (![] : Fin 0 → Fin S4x960.rank)
  concatenates_S4x40000_S4x960_S4x40960_d1 : Shape.Concatenates [S4x40000, S4x960] S4x40960 1
  inb_S3x1024_S1x1024_0_0 : ∀ a, (![0, 0] : Fin 2 → Nat) a + S1x1024.size a ≤ S3x1024.size a
  inb_S3x1024_S1x1024_1_0 : ∀ a, (![1, 0] : Fin 2 → Nat) a + S1x1024.size a ≤ S3x1024.size a
  inb_S3x1024_S1x1024_2_0 : ∀ a, (![2, 0] : Fin 2 → Nat) a + S1x1024.size a ≤ S3x1024.size a
  bcast_S_S4x1440 : S_.BroadcastsInDim S4x1440 (![] : Fin 0 → Fin S4x1440.rank)
  concatenates_S4x60000_S4x1440_S4x61440_d1 : Shape.Concatenates [S4x60000, S4x1440] S4x61440 1
  inb_S4x1024_S1x1024_0_0 : ∀ a, (![0, 0] : Fin 2 → Nat) a + S1x1024.size a ≤ S4x1024.size a
  inb_S4x1024_S1x1024_1_0 : ∀ a, (![1, 0] : Fin 2 → Nat) a + S1x1024.size a ≤ S4x1024.size a
  inb_S4x1024_S1x1024_2_0 : ∀ a, (![2, 0] : Fin 2 → Nat) a + S1x1024.size a ≤ S4x1024.size a
  inb_S4x1024_S1x1024_3_0 : ∀ a, (![3, 0] : Fin 2 → Nat) a + S1x1024.size a ≤ S4x1024.size a
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  concatenates_S1024x1_S1024x1_S1024x1_S1024x1_S1024x1_S1024x5_d1 : Shape.Concatenates [S1024x1, S1024x1, S1024x1, S1024x1, S1024x1] S1024x5 1
  reducesTo_S1024x5_S_d0_1 : S1024x5.ReducesTo [0, 1] S_
  gather_S4x64_S1024x1_S1024x64_1_0_n_n_0_1_164_wf : GatherDims.WF S4x64 S1024x1 S1024x64 [1] [0] [] [0] [] 1 ![1, 64]
  dot_S1024x1024_S1024x1024_S1024x1024_1_0_0_1_n_n_wf : DotDims.WF S1024x1024 S1024x1024 S1024x1024 [1] [0] [0] [1] [] []
  gather_S1024x4_S1024x1x1_S1024x1_n_1_0_0_1_2_11_wf : GatherDims.WF S1024x4 S1024x1x1 S1024x1 [] [1] [0] [1] [0] 2 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .bf16 = 32 ∨ (Rect.block (s := S1024x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x20480.size a
  hwx0_2 : ∀ i : grid0.Coords, EltTy.bits .i32 = 32 ∨ (Rect.block (s := S2x20480) S2x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x20480.size a
  hwx0_3 : ∀ i : grid0.Coords, EltTy.bits .f32 = 32 ∨ (Rect.block (s := S4x20480) S4x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x4.size a ≤ S2x1024x4.size a
  hwx0_4 : ∀ i : grid0.Coords, EltTy.bits .f32 = 32 ∨ (Rect.block (s := S2x1024x4) S1x1024x4.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .bf16 = 32 ∨ (Rect.block (s := S1024x1024) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x1024.size a ≤ S3x40960.size a
  hwx1_2 : ∀ i : grid1.Coords, EltTy.bits .i32 = 32 ∨ (Rect.block (s := S3x40960) S3x1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x1024.size a ≤ S4x40960.size a
  hwx1_3 : ∀ i : grid1.Coords, EltTy.bits .f32 = 32 ∨ (Rect.block (s := S4x40960) S4x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x4.size a ≤ S2x1024x4.size a
  hwx1_4 : ∀ i : grid1.Coords, EltTy.bits .f32 = 32 ∨ (Rect.block (s := S2x1024x4) S1x1024x4.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S1024x1024.size a
  hwx2_0 : ∀ i : grid2.Coords, EltTy.bits .bf16 = 32 ∨ (Rect.block (s := S1024x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x1024.size a ≤ S4x61440.size a
  hwx2_2 : ∀ i : grid2.Coords, EltTy.bits .i32 = 32 ∨ (Rect.block (s := S4x61440) S4x1024.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4x1024.size a ≤ S4x61440.size a
  hwx2_3 : ∀ i : grid2.Coords, EltTy.bits .f32 = 32 ∨ (Rect.block (s := S4x61440) S4x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x4.size a ≤ S2x1024x4.size a
  hwx2_4 : ∀ i : grid2.Coords, EltTy.bits .f32 = 32 ∨ (Rect.block (s := S2x1024x4) S1x1024x4.size (cc2_transform_4 i) (hinb2_4 i)).WholeWords (EltTy.packing .f32)

variable [Facts₀]

def gather_S4x64_S1024x1_S1024x64_1_0_n_n_0_1_164 : GatherDims S4x64 S1024x1 S1024x64 where
  offsetDims := [1]
  collapsedSliceDims := [0]
  operandBatchingDims := []
  startIndicesBatchingDims := []
  startIndexMap := [0]
  indexVectorDim := 1
  sliceSizes := ![1, 64]
  wf := gather_S4x64_S1024x1_S1024x64_1_0_n_n_0_1_164_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def gather_S1024x4_S1024x1x1_S1024x1_n_1_0_0_1_2_11 : GatherDims S1024x4 S1024x1x1 S1024x1 where
  offsetDims := []
  collapsedSliceDims := [1]
  operandBatchingDims := [0]
  startIndicesBatchingDims := [0]
  startIndexMap := [1]
  indexVectorDim := 2
  sliceSizes := ![1, 1]
  wf := gather_S1024x4_S1024x1x1_S1024x1_n_1_0_0_1_2_11_wf

abbrev win0_0 : Pipeline.Window sig grid0 :=
  Pipeline.Window.ofSpec (Memref.whole main_v13) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S4x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1024x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S3x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S4x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x1024x4.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v13) S1024x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S4x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S4x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x1024x4.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1024x4 : Shape := ⟨2, ![1024, 4]⟩
abbrev S1024x64 : Shape := ⟨2, ![1024, 64]⟩
abbrev S1024x1024 : Shape := ⟨2, ![1024, 1024]⟩
abbrev S1 : Shape := ⟨1, ![1]⟩
abbrev S4x64 : Shape := ⟨2, ![4, 64]⟩
abbrev S2x20000 : Shape := ⟨2, ![2, 20000]⟩
abbrev S4x20000 : Shape := ⟨2, ![4, 20000]⟩
abbrev S3x40000 : Shape := ⟨2, ![3, 40000]⟩
abbrev S4x40000 : Shape := ⟨2, ![4, 40000]⟩
abbrev S4x60000 : Shape := ⟨2, ![4, 60000]⟩
abbrev S1024 : Shape := ⟨1, ![1024]⟩
abbrev S_ : Shape := ⟨0, ![]⟩
abbrev S1024x1 : Shape := ⟨2, ![1024, 1]⟩
abbrev S1x20000 : Shape := ⟨2, ![1, 20000]⟩
abbrev S20000 : Shape := ⟨1, ![20000]⟩
abbrev S20000x1 : Shape := ⟨2, ![20000, 1]⟩
abbrev S1024x20000 : Shape := ⟨2, ![1024, 20000]⟩
abbrev S1x40000 : Shape := ⟨2, ![1, 40000]⟩
abbrev S40000 : Shape := ⟨1, ![40000]⟩
abbrev S40000x1 : Shape := ⟨2, ![40000, 1]⟩
abbrev S1024x40000 : Shape := ⟨2, ![1024, 40000]⟩
abbrev S1x60000 : Shape := ⟨2, ![1, 60000]⟩
abbrev S60000 : Shape := ⟨1, ![60000]⟩
abbrev S60000x1 : Shape := ⟨2, ![60000, 1]⟩
abbrev S1024x60000 : Shape := ⟨2, ![1024, 60000]⟩
abbrev S1024x5 : Shape := ⟨2, ![1024, 5]⟩

abbrev nBuf : Space → Nat
  | .hbm => 179
  | .vmem => 0
  | .smem => 0
  | _ => 0

abbrev hbmTy0_0 (i : Nat) : BufTy := match i % 128 with
  | 0 => ⟨S1024x4, .f32⟩
  | 1 => ⟨S1024x64, .f32⟩
  | 2 => ⟨S1024x1024, .f32⟩
  | 3 => ⟨S1, .f32⟩
  | 4 => ⟨S4x64, .f32⟩
  | 5 => ⟨S2x20000, .i32⟩
  | 6 => ⟨S4x20000, .f32⟩
  | 7 => ⟨S3x40000, .i32⟩
  | 8 => ⟨S4x40000, .f32⟩
  | 9 => ⟨S4x60000, .i32⟩
  | 10 => ⟨S4x60000, .f32⟩
  | 11 => ⟨S1024, .i32⟩
  | 12 => ⟨S1024, .i32⟩
  | 13 => ⟨S_, .f32⟩
  | 14 => ⟨S1024, .f32⟩
  | 15 => ⟨S_, .f32⟩
  | 16 => ⟨S1024, .f32⟩
  | 17 => ⟨S1024, .f32⟩
  | 18 => ⟨S_, .i32⟩
  | 19 => ⟨S1024, .i32⟩
  | 20 => ⟨S1024, .i1⟩
  | 21 => ⟨S_, .i32⟩
  | 22 => ⟨S1024, .i32⟩
  | 23 => ⟨S1024, .i32⟩
  | 24 => ⟨S1024, .i32⟩
  | 25 => ⟨S1024x1, .i32⟩
  | 26 => ⟨S1024x64, .f32⟩
  | 27 => ⟨S1024x64, .f32⟩
  | 28 => ⟨S_, .f32⟩
  | 29 => ⟨S1024, .f32⟩
  | 30 => ⟨S1x20000, .i32⟩
  | 31 => ⟨S20000, .i32⟩
  | 32 => ⟨S_, .i32⟩
  | 33 => ⟨S20000, .i32⟩
  | 34 => ⟨S20000, .i1⟩
  | 35 => ⟨S_, .i32⟩
  | 36 => ⟨S20000, .i32⟩
  | 37 => ⟨S20000, .i32⟩
  | 38 => ⟨S20000, .i32⟩
  | 39 => ⟨S20000x1, .i32⟩
  | 40 => ⟨S1024x20000, .f32⟩
  | 41 => ⟨S1x20000, .i32⟩
  | 42 => ⟨S20000, .i32⟩
  | 43 => ⟨S_, .i32⟩
  | 44 => ⟨S20000, .i32⟩
  | 45 => ⟨S20000, .i1⟩
  | 46 => ⟨S_, .i32⟩
  | 47 => ⟨S20000, .i32⟩
  | 48 => ⟨S20000, .i32⟩
  | 49 => ⟨S20000, .i32⟩
  | 50 => ⟨S20000x1, .i32⟩
  | 51 => ⟨S1024x20000, .f32⟩
  | 52 => ⟨S1024x20000, .f32⟩
  | 53 => ⟨S_, .i32⟩
  | 54 => ⟨S1024, .i32⟩
  | 55 => ⟨S1024, .i1⟩
  | 56 => ⟨S_, .i32⟩
  | 57 => ⟨S1024, .i32⟩
  | 58 => ⟨S1024, .i32⟩
  | 59 => ⟨S1024, .i32⟩
  | 60 => ⟨S1024x1, .i32⟩
  | 61 => ⟨S1024x20000, .f32⟩
  | 62 => ⟨S1024x20000, .f32⟩
  | 63 => ⟨S_, .f32⟩
  | 64 => ⟨S1024, .f32⟩
  | 65 => ⟨S1x40000, .i32⟩
  | 66 => ⟨S40000, .i32⟩
  | 67 => ⟨S_, .i32⟩
  | 68 => ⟨S40000, .i32⟩
  | 69 => ⟨S40000, .i1⟩
  | 70 => ⟨S_, .i32⟩
  | 71 => ⟨S40000, .i32⟩
  | 72 => ⟨S40000, .i32⟩
  | 73 => ⟨S40000, .i32⟩
  | 74 => ⟨S40000x1, .i32⟩
  | 75 => ⟨S1024x40000, .f32⟩
  | 76 => ⟨S1x40000, .i32⟩
  | 77 => ⟨S40000, .i32⟩
  | 78 => ⟨S_, .i32⟩
  | 79 => ⟨S40000, .i32⟩
  | 80 => ⟨S40000, .i1⟩
  | 81 => ⟨S_, .i32⟩
  | 82 => ⟨S40000, .i32⟩
  | 83 => ⟨S40000, .i32⟩
  | 84 => ⟨S40000, .i32⟩
  | 85 => ⟨S40000x1, .i32⟩
  | 86 => ⟨S1024x40000, .f32⟩
  | 87 => ⟨S1024x40000, .f32⟩
  | 88 => ⟨S1x40000, .i32⟩
  | 89 => ⟨S40000, .i32⟩
  | 90 => ⟨S_, .i32⟩
  | 91 => ⟨S40000, .i32⟩
  | 92 => ⟨S40000, .i1⟩
  | 93 => ⟨S_, .i32⟩
  | 94 => ⟨S40000, .i32⟩
  | 95 => ⟨S40000, .i32⟩
  | 96 => ⟨S40000, .i32⟩
  | 97 => ⟨S40000x1, .i32⟩
  | 98 => ⟨S1024x40000, .f32⟩
  | 99 => ⟨S1024x40000, .f32⟩
  | 100 => ⟨S_, .i32⟩
  | 101 => ⟨S1024, .i32⟩
  | 102 => ⟨S1024, .i1⟩
  | 103 => ⟨S_, .i32⟩
  | 104 => ⟨S1024, .i32⟩
  | 105 => ⟨S1024, .i32⟩
  | 106 => ⟨S1024, .i32⟩
  | 107 => ⟨S1024x1, .i32⟩
  | 108 => ⟨S1024x40000, .f32⟩
  | 109 => ⟨S1024x40000, .f32⟩
  | 110 => ⟨S_, .f32⟩
  | 111 => ⟨S1024, .f32⟩
  | 112 => ⟨S1x60000, .i32⟩
  | 113 => ⟨S60000, .i32⟩
  | 114 => ⟨S_, .i32⟩
  | 115 => ⟨S60000, .i32⟩
  | 116 => ⟨S60000, .i1⟩
  | 117 => ⟨S_, .i32⟩
  | 118 => ⟨S60000, .i32⟩
  | 119 => ⟨S60000, .i32⟩
  | 120 => ⟨S60000, .i32⟩
  | 121 => ⟨S60000x1, .i32⟩
  | 122 => ⟨S1024x60000, .f32⟩
  | 123 => ⟨S1x60000, .i32⟩
  | 124 => ⟨S60000, .i32⟩
  | 125 => ⟨S_, .i32⟩
  | 126 => ⟨S60000, .i32⟩
  | 127 => ⟨S60000, .i1⟩
  | _ => ⟨S1024x4, .f32⟩

abbrev hbmTy0_1 (i : Nat) : BufTy := match i % 128 with
  | 0 => ⟨S_, .i32⟩
  | 1 => ⟨S60000, .i32⟩
  | 2 => ⟨S60000, .i32⟩
  | 3 => ⟨S60000, .i32⟩
  | 4 => ⟨S60000x1, .i32⟩
  | 5 => ⟨S1024x60000, .f32⟩
  | 6 => ⟨S1024x60000, .f32⟩
  | 7 => ⟨S1x60000, .i32⟩
  | 8 => ⟨S60000, .i32⟩
  | 9 => ⟨S_, .i32⟩
  | 10 => ⟨S60000, .i32⟩
  | 11 => ⟨S60000, .i1⟩
  | 12 => ⟨S_, .i32⟩
  | 13 => ⟨S60000, .i32⟩
  | 14 => ⟨S60000, .i32⟩
  | 15 => ⟨S60000, .i32⟩
  | 16 => ⟨S60000x1, .i32⟩
  | 17 => ⟨S1024x60000, .f32⟩
  | 18 => ⟨S1024x60000, .f32⟩
  | 19 => ⟨S1x60000, .i32⟩
  | 20 => ⟨S60000, .i32⟩
  | 21 => ⟨S_, .i32⟩
  | 22 => ⟨S60000, .i32⟩
  | 23 => ⟨S60000, .i1⟩
  | 24 => ⟨S_, .i32⟩
  | 25 => ⟨S60000, .i32⟩
  | 26 => ⟨S60000, .i32⟩
  | 27 => ⟨S60000, .i32⟩
  | 28 => ⟨S60000x1, .i32⟩
  | 29 => ⟨S1024x60000, .f32⟩
  | 30 => ⟨S1024x60000, .f32⟩
  | 31 => ⟨S_, .i32⟩
  | 32 => ⟨S1024, .i32⟩
  | 33 => ⟨S1024, .i1⟩
  | 34 => ⟨S_, .i32⟩
  | 35 => ⟨S1024, .i32⟩
  | 36 => ⟨S1024, .i32⟩
  | 37 => ⟨S1024, .i32⟩
  | 38 => ⟨S1024x1, .i32⟩
  | 39 => ⟨S1024x60000, .f32⟩
  | 40 => ⟨S1024x60000, .f32⟩
  | 41 => ⟨S_, .f32⟩
  | 42 => ⟨S1024, .f32⟩
  | 43 => ⟨S1024x1, .f32⟩
  | 44 => ⟨S1024x1, .f32⟩
  | 45 => ⟨S1024x1, .f32⟩
  | 46 => ⟨S1024x1, .f32⟩
  | 47 => ⟨S1024x1, .f32⟩
  | 48 => ⟨S1024x5, .f32⟩
  | 49 => ⟨S_, .f32⟩
  | 50 => ⟨S_, .f32⟩
  | _ => ⟨S1024x4, .f32⟩

abbrev hbmTy (i : Nat) : BufTy := match i / 128 with
  | 0 => hbmTy0_0 i
  | 1 => hbmTy0_1 i
  | _ => ⟨S1024x4, .f32⟩

abbrev bufTy : (tb : Table) → Fin (tcTables nBuf tb) → BufTy
  | .hbm, ⟨i, _⟩ => hbmTy i
  | _, _ => ⟨S1024x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_17 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_c_19 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_20 : Ref sig .tc := ⟨.hbm, 125, rfl⟩
abbrev main_v90 : Ref sig .tc := ⟨.hbm, 126, rfl⟩
abbrev main_v91 : Ref sig .tc := ⟨.hbm, 127, rfl⟩
abbrev main_c_21 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_22 : Ref sig .tc := ⟨.hbm, 137, rfl⟩
abbrev main_v100 : Ref sig .tc := ⟨.hbm, 138, rfl⟩
abbrev main_v101 : Ref sig .tc := ⟨.hbm, 139, rfl⟩
abbrev main_c_23 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_24 : Ref sig .tc := ⟨.hbm, 149, rfl⟩
abbrev main_v110 : Ref sig .tc := ⟨.hbm, 150, rfl⟩
abbrev main_v111 : Ref sig .tc := ⟨.hbm, 151, rfl⟩
abbrev main_c_25 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_c_26 : Ref sig .tc := ⟨.hbm, 159, rfl⟩
abbrev main_v118 : Ref sig .tc := ⟨.hbm, 160, rfl⟩
abbrev main_v119 : Ref sig .tc := ⟨.hbm, 161, rfl⟩
abbrev main_c_27 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_28 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_29 : Ref sig .tc := ⟨.hbm, 177, rfl⟩
abbrev main_v133 : Ref sig .tc := ⟨.hbm, 178, rfl⟩

abbrev nD : Nat := 1
abbrev τ : Topo := Topo.v7x

variable {F : FTy → Type} [FloatOps F]

class Facts₀ : Prop where
  reducesTo_S1024x4_S1024_d1 : S1024x4.ReducesTo [1] S1024
  h_S_ : 0 < S_.numel
  shapeCasts_S1_S_ : S1.ShapeCasts S_
  bcast_S_S1024 : S_.BroadcastsInDim S1024 (![] : Fin 0 → Fin S1024.rank)
  bcast_S1024_S1024x1_0 : S1024.BroadcastsInDim S1024x1 (![0] : Fin 1 → Fin S1024x1.rank)
  reducesTo_S1024x64_S1024_d1 : S1024x64.ReducesTo [1] S1024
  slices_S2x20000_S1x20000_0_0 : S2x20000.Slices ![0, 0] S1x20000
  shapeCasts_S1x20000_S20000 : S1x20000.ShapeCasts S20000
  bcast_S_S20000 : S_.BroadcastsInDim S20000 (![] : Fin 0 → Fin S20000.rank)
  bcast_S20000_S20000x1_0 : S20000.BroadcastsInDim S20000x1 (![0] : Fin 1 → Fin S20000x1.rank)
  slices_S2x20000_S1x20000_1_0 : S2x20000.Slices ![1, 0] S1x20000
  reducesTo_S1024x20000_S1024_d1 : S1024x20000.ReducesTo [1] S1024
  slices_S3x40000_S1x40000_0_0 : S3x40000.Slices ![0, 0] S1x40000
  shapeCasts_S1x40000_S40000 : S1x40000.ShapeCasts S40000
  bcast_S_S40000 : S_.BroadcastsInDim S40000 (![] : Fin 0 → Fin S40000.rank)
  bcast_S40000_S40000x1_0 : S40000.BroadcastsInDim S40000x1 (![0] : Fin 1 → Fin S40000x1.rank)
  slices_S3x40000_S1x40000_1_0 : S3x40000.Slices ![1, 0] S1x40000
  slices_S3x40000_S1x40000_2_0 : S3x40000.Slices ![2, 0] S1x40000
  reducesTo_S1024x40000_S1024_d1 : S1024x40000.ReducesTo [1] S1024
  slices_S4x60000_S1x60000_0_0 : S4x60000.Slices ![0, 0] S1x60000
  shapeCasts_S1x60000_S60000 : S1x60000.ShapeCasts S60000
  bcast_S_S60000 : S_.BroadcastsInDim S60000 (![] : Fin 0 → Fin S60000.rank)
  bcast_S60000_S60000x1_0 : S60000.BroadcastsInDim S60000x1 (![0] : Fin 1 → Fin S60000x1.rank)
  slices_S4x60000_S1x60000_1_0 : S4x60000.Slices ![1, 0] S1x60000
  slices_S4x60000_S1x60000_2_0 : S4x60000.Slices ![2, 0] S1x60000
  slices_S4x60000_S1x60000_3_0 : S4x60000.Slices ![3, 0] S1x60000
  reducesTo_S1024x60000_S1024_d1 : S1024x60000.ReducesTo [1] S1024
  concatenates_S1024x1_S1024x1_S1024x1_S1024x1_S1024x1_S1024x5_d1 : Shape.Concatenates [S1024x1, S1024x1, S1024x1, S1024x1, S1024x1] S1024x5 1
  reducesTo_S1024x5_S_d0_1 : S1024x5.ReducesTo [0, 1] S_
  gather_S4x64_S1024x1_S1024x64_1_0_n_n_0_1_164_wf : GatherDims.WF S4x64 S1024x1 S1024x64 [1] [0] [] [0] [] 1 ![1, 64]
  gather_S1024x1024_S20000x1_S1024x20000_0_1_n_n_1_1_10241_wf : GatherDims.WF S1024x1024 S20000x1 S1024x20000 [0] [1] [] [1] [] 1 ![1024, 1]
  gather_S4x20000_S1024x1_S1024x20000_1_0_n_n_0_1_120000_wf : GatherDims.WF S4x20000 S1024x1 S1024x20000 [1] [0] [] [0] [] 1 ![1, 20000]
  gather_S1024x1024_S40000x1_S1024x40000_0_1_n_n_1_1_10241_wf : GatherDims.WF S1024x1024 S40000x1 S1024x40000 [0] [1] [] [1] [] 1 ![1024, 1]
  gather_S4x40000_S1024x1_S1024x40000_1_0_n_n_0_1_140000_wf : GatherDims.WF S4x40000 S1024x1 S1024x40000 [1] [0] [] [0] [] 1 ![1, 40000]
  gather_S1024x1024_S60000x1_S1024x60000_0_1_n_n_1_1_10241_wf : GatherDims.WF S1024x1024 S60000x1 S1024x60000 [0] [1] [] [1] [] 1 ![1024, 1]
  gather_S4x60000_S1024x1_S1024x60000_1_0_n_n_0_1_160000_wf : GatherDims.WF S4x60000 S1024x1 S1024x60000 [1] [0] [] [0] [] 1 ![1, 60000]

variable [Facts₀]

def gather_S4x64_S1024x1_S1024x64_1_0_n_n_0_1_164 : GatherDims S4x64 S1024x1 S1024x64 where
  offsetDims := [1]
  collapsedSliceDims := [0]
  operandBatchingDims := []
  startIndicesBatchingDims := []
  startIndexMap := [0]
  indexVectorDim := 1
  sliceSizes := ![1, 64]
  wf := gather_S4x64_S1024x1_S1024x64_1_0_n_n_0_1_164_wf
def gather_S1024x1024_S20000x1_S1024x20000_0_1_n_n_1_1_10241 : GatherDims S1024x1024 S20000x1 S1024x20000 where
  offsetDims := [0]
  collapsedSliceDims := [1]
  operandBatchingDims := []
  startIndicesBatchingDims := []
  startIndexMap := [1]
  indexVectorDim := 1
  sliceSizes := ![1024, 1]
  wf := gather_S1024x1024_S20000x1_S1024x20000_0_1_n_n_1_1_10241_wf
def gather_S4x20000_S1024x1_S1024x20000_1_0_n_n_0_1_120000 : GatherDims S4x20000 S1024x1 S1024x20000 where
  offsetDims := [1]
  collapsedSliceDims := [0]
  operandBatchingDims := []
  startIndicesBatchingDims := []
  startIndexMap := [0]
  indexVectorDim := 1
  sliceSizes := ![1, 20000]
  wf := gather_S4x20000_S1024x1_S1024x20000_1_0_n_n_0_1_120000_wf
def gather_S1024x1024_S40000x1_S1024x40000_0_1_n_n_1_1_10241 : GatherDims S1024x1024 S40000x1 S1024x40000 where
  offsetDims := [0]
  collapsedSliceDims := [1]
  operandBatchingDims := []
  startIndicesBatchingDims := []
  startIndexMap := [1]
  indexVectorDim := 1
  sliceSizes := ![1024, 1]
  wf := gather_S1024x1024_S40000x1_S1024x40000_0_1_n_n_1_1_10241_wf
def gather_S4x40000_S1024x1_S1024x40000_1_0_n_n_0_1_140000 : GatherDims S4x40000 S1024x1 S1024x40000 where
  offsetDims := [1]
  collapsedSliceDims := [0]
  operandBatchingDims := []
  startIndicesBatchingDims := []
  startIndexMap := [0]
  indexVectorDim := 1
  sliceSizes := ![1, 40000]
  wf := gather_S4x40000_S1024x1_S1024x40000_1_0_n_n_0_1_140000_wf
def gather_S1024x1024_S60000x1_S1024x60000_0_1_n_n_1_1_10241 : GatherDims S1024x1024 S60000x1 S1024x60000 where
  offsetDims := [0]
  collapsedSliceDims := [1]
  operandBatchingDims := []
  startIndicesBatchingDims := []
  startIndexMap := [1]
  indexVectorDim := 1
  sliceSizes := ![1024, 1]
  wf := gather_S1024x1024_S60000x1_S1024x60000_0_1_n_n_1_1_10241_wf
def gather_S4x60000_S1024x1_S1024x60000_1_0_n_n_0_1_160000 : GatherDims S4x60000 S1024x1 S1024x60000 where
  offsetDims := [1]
  collapsedSliceDims := [0]
  operandBatchingDims := []
  startIndicesBatchingDims := []
  startIndexMap := [0]
  indexVectorDim := 1
  sliceSizes := ![1, 60000]
  wf := gather_S4x60000_S1024x1_S1024x60000_1_0_n_n_0_1_160000_wf

class Facts : Prop extends Facts₀ where

variable [Facts]
-- ==== Proof.K.Reg0Runs.lean ====
import proofs.«421389_j87436944212793_2_alg».proof.Proof.Gen.Kernel.Launch
import proofs.«421389_j87436944212793_2_alg».proof.Proof.Gen.Kernel.Skeleton
import proofs.«421389_j87436944212793_2_alg».proof.Proof.Gen.Kernel.Points
import Idealize.ShloMosaic.Lib.Pipeline.FrameBody
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ
def iblk0 (V : (c : Dev nD) → (b : Ref sig .tc) → Buf (Elt F) ((c : Thread nD τ).loc b)) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 10 = 0 :=
  (by decide +kernel : ∀ t : Fin grid0.N, cond0_0 (grid0.coords t) ↔ t.val % 10 = 0)

abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)
abbrev hs0_4 (t : Fin cfg0.N) : (st0_4 t).IsWhole := hstage0_4 ((cfg0.slots t 4).cast nbuf0_4)

variable {arg2 arg3 : Memref sig .tc .vmem S1024x1024 .bf16} {arg4 : Memref sig .tc .vmem S2x1024 .i32} {arg5 : Memref sig .tc .vmem S4x1024 .f32} {arg6 : Memref sig .tc .vmem S1x1024x4 .f32}
variable (c : Dev nD) (i : grid0.Coords) (harg2 : arg2.IsWhole) (harg3 : arg3.IsWhole) (harg4 : arg4.IsWhole) (harg5 : arg5.IsWhole) (harg6 : arg6.IsWhole)
  (x0 x1 : Vec F S1024x1024 .bf16) (x2 : Vec F S2x1024 .i32) (x3 : Vec F S4x1024 .f32)

/-- A whole memref owned at `x` is its raw contents that read `x`. -/
theorem owns_unread {s : Shape} {e : EltTy} {m : Memref sig .tc .vmem s e} (h : m.IsWhole) (x : Vec F s e) :
    (owns c m fullShare x : sProp 𝕄) = (m.view.loc (c : Thread nD τ) ↦[m.view.set]{fullShare} h.unread x) := by
  have h₁ : (owns c m fullShare x : sProp 𝕄) ⊢ (m.view.loc (c : Thread nD τ) ↦[m.view.set]{fullShare} h.unread x) := by
    unfold owns; iintro ⟨%f, %hf, H⟩; obtain rfl := h.eq_unread hf; iexact H
  have h₂ : (m.view.loc (c : Thread nD τ) ↦[m.view.set]{fullShare} h.unread x) ⊢ (owns c m fullShare x : sProp 𝕄) := by
    unfold owns; iintro H; iexists _; isplitr; · ipureintro; exact h.read_unread _
    iexact H
  exact BI.equiv_iff.mp ⟨h₁, h₂⟩

/-- The body's triple on whole buffers: the inputs hold `x0 … x3` and keep them, the output buffer goes from `P` to `Q`. -/
def run0 (P Q : sProp 𝕄) : Prop :=
  ∀ (E : Set ℕ) (K : PUnit → sProp 𝕄),
    iprop(owns c arg2 fullShare x0 ∗ owns c arg3 fullShare x1 ∗ owns c arg4 fullShare x2 ∗ owns c arg5 fullShare x3 ∗ P
        ∗ (iprop(owns c arg2 fullShare x0 ∗ owns c arg3 fullShare x1 ∗ owns c arg4 fullShare x2 ∗ owns c arg5 fullShare x3 ∗ Q) -∗ K ⟨⟩))
      ⊢ wp frame (wpE (defs₀ (F := F)) Variants.none c none) E (cc0__lambda_ i arg2 harg2 arg3 harg3 arg4 harg4 arg5 harg5 arg6 harg6) K

/-- Pieces that tile the output block overwrite all of it: the buffer then holds what they read back as, whatever it held. -/
theorem run0_out {P : sProp 𝕄} {L : List (View.Piece (Elt F) S1x1024x4 .f32)}
    (h : run0 c i harg2 harg3 harg4 harg5 harg6 x0 x1 x2 x3 P iprop(∃ f, arg6.view.loc (c : Thread nD τ) ↦[arg6.view.set]{fullShare} arg6.view.writes (Elt F) f L))
    (hL : View.Piece.tiledL L S1x1024x4.size = true) :
    run0 c i harg2 harg3 harg4 harg5 harg6 x0 x1 x2 x3 P (owns c arg6 fullShare (arg6.view.read (Elt F) (arg6.view.writes (Elt F) arg6.view.junk L))) := by
  intro E K
  iintro ⟨H0, H1, H2, H3, HP, Hk⟩
  iapply h E K
  iframe H0 H1 H2 H3 HP
  iintro ⟨H0, H1, H2, H3, ⟨%f, H4⟩⟩
  iapply Hk
  iframe H0 H1 H2 H3
  unfold owns; iexists _; isplitr
  swap; · iexact H4
  ipureintro; exact View.read_writes_of_cover _ _ _ _ _ (View.cover_of_tiledL _ _ hL)

end Cert.Kernel.Gen

end
-- ==== Proof.K.Reg0RunA.lean ====
import proofs.«421389_j87436944212793_2_alg».proof.Proof.K.Reg0Runs

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable {arg2 arg3 : Memref sig .tc .vmem S1024x1024 .bf16} {arg4 : Memref sig .tc .vmem S2x1024 .i32} {arg5 : Memref sig .tc .vmem S4x1024 .f32} {arg6 : Memref sig .tc .vmem S1x1024x4 .f32}
variable (c : Dev nD) (i : grid0.Coords) (harg2 : arg2.IsWhole) (harg3 : arg3.IsWhole) (harg4 : arg4.IsWhole) (harg5 : arg5.IsWhole) (harg6 : arg6.IsWhole)
  (x0 x1 : Vec F S1024x1024 .bf16) (x2 : Vec F S2x1024 .i32) (x3 : Vec F S4x1024 .f32)

/-- The reset case: the body first sets the output buffer to zero, so whatever that holds is lost. -/
def pieces0_A (hc0 : cond0_0 i) :
    { L // ∀ xo4, run0 c i harg2 harg3 harg4 harg5 harg6 x0 x1 x2 x3 (owns c arg6 fullShare xo4) iprop(∃ f, arg6.view.loc (c : Thread nD τ) ↦[arg6.view.set]{fullShare} arg6.view.writes (Elt F) f L) } := by
  refine ⟨?_, fun xo4 E K => ?run⟩
  case run =>
    simp only [cc0__lambda__eq_skeleton]; unfold cc0__lambda__skel
    simp only [k0_part1_eq_skeleton]
    rw [owns_unread c harg2, owns_unread c harg3, owns_unread c harg4, owns_unread c harg5, owns_unread c harg6]
    iintro ⟨H0, H1, H2, H3, H4, Hk⟩
    sl_exec (disch := first | exact hc0)
    sl_step
    iapply Hk
    iframe H0 H1 H2 H3
    iexists _; iexact H4

def kernelRun0_A (hc0 : cond0_0 i) : { o // ∀ xo4, run0 c i harg2 harg3 harg4 harg5 harg6 x0 x1 x2 x3 (owns c arg6 fullShare xo4) (owns c arg6 fullShare o) } :=
  ⟨_, fun xo4 => run0_out _ _ _ _ _ _ _ _ _ _ _ ((pieces0_A c i harg2 harg3 harg4 harg5 harg6 x0 x1 x2 x3 hc0).2 xo4) (by sl_kernel_rfl)⟩

end Cert.Kernel.Gen

end
-- ==== Proof.K.Reg0RunB.lean ====
import proofs.«421389_j87436944212793_2_alg».proof.Proof.K.Reg0RunA

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable {arg2 arg3 : Memref sig .tc .vmem S1024x1024 .bf16} {arg4 : Memref sig .tc .vmem S2x1024 .i32} {arg5 : Memref sig .tc .vmem S4x1024 .f32} {arg6 : Memref sig .tc .vmem S1x1024x4 .f32}
variable (c : Dev nD) (i : grid0.Coords) (harg2 : arg2.IsWhole) (harg3 : arg3.IsWhole) (harg4 : arg4.IsWhole) (harg5 : arg5.IsWhole) (harg6 : arg6.IsWhole)
  (x0 x1 : Vec F S1024x1024 .bf16) (x2 : Vec F S2x1024 .i32) (x3 : Vec F S4x1024 .f32)

/-- The accumulating case: the body adds to what the output buffer holds, `xo4`. -/
def pieces0_B (hc0 : ¬cond0_0 i) (xo4 : Vec F S1x1024x4 .f32) :
    { L // run0 c i harg2 harg3 harg4 harg5 harg6 x0 x1 x2 x3 (owns c arg6 fullShare xo4) iprop(∃ f, arg6.view.loc (c : Thread nD τ) ↦[arg6.view.set]{fullShare} arg6.view.writes (Elt F) f L) } := by
  refine ⟨?_, fun E K => ?run⟩
  case run =>
    simp only [cc0__lambda__eq_skeleton]; unfold cc0__lambda__skel
    simp only [k0_part1_eq_skeleton]
    rw [owns_unread c harg2, owns_unread c harg3, owns_unread c harg4, owns_unread c harg5, owns_unread c harg6]
    iintro ⟨H0, H1, H2, H3, H4, Hk⟩
    sl_exec (disch := first | exact hc0)
    sl_step
    iapply Hk
    iframe H0 H1 H2 H3
    iexists _; iexact H4

def kernelRun0_B (hc0 : ¬cond0_0 i) (xo4 : Vec F S1x1024x4 .f32) : { o // run0 c i harg2 harg3 harg4 harg5 harg6 x0 x1 x2 x3 (owns c arg6 fullShare xo4) (owns c arg6 fullShare o) } :=
  ⟨_, run0_out _ _ _ _ _ _ _ _ _ _ _ (pieces0_B c i harg2 harg3 harg4 harg5 harg6 x0 x1 x2 x3 hc0 xo4).2 (by sl_kernel_rfl)⟩

end Cert.Kernel.Gen

end
-- ==== Proof.K.Reg0Frame.lean ====
import proofs.«421389_j87436944212793_2_alg».proof.Proof.K.Reg0RunB

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b)) (c : Dev nD)

/-- The two runs at point `t`, on the blocks the region finds there. -/
def out0_A (t : Fin cfg0.N) (h0 : t.val % 10 = 0) :=
  kernelRun0_A c (grid0.coords t) (hs0_0 t) (hs0_1 t) (hs0_2 t) (hs0_3 t) (hs0_4 t) (iblk0 V c 0 t) (iblk0 V c 1 t) (iblk0 V c 2 t) (iblk0 V c 3 t) ((hcond0_0 t).mpr h0)
def out0_B (t : Fin cfg0.N) (h0 : ¬t.val % 10 = 0) :=
  kernelRun0_B c (grid0.coords t) (hs0_0 t) (hs0_1 t) (hs0_2 t) (hs0_3 t) (hs0_4 t) (iblk0 V c 0 t) (iblk0 V c 1 t) (iblk0 V c 2 t) (iblk0 V c 3 t) (mt (hcond0_0 t).mp h0)

/-- What the output buffer holds after the body at position `n`: a half's first tile resets it, every other tile adds to what the tile before left. -/
def outsAt0 (n : ℕ) (hn : n < cfg0.N) : Vec F S1x1024x4 .f32 :=
  if h0 : n % 10 = 0 then (out0_A V c ⟨n, hn⟩ h0).1 else (out0_B V c ⟨n, hn⟩ h0 (outsAt0 (n - 1) (by omega))).1
termination_by n
decreasing_by omega

theorem outsAt0_A (t : Fin cfg0.N) (h0 : t.val % 10 = 0) : outsAt0 V c t.val t.isLt = (out0_A V c t h0).1 := by
  rw [outsAt0, dif_pos h0]

theorem outsAt0_B (t : Fin cfg0.N) (h0 : ¬t.val % 10 = 0) :
    outsAt0 V c t.val t.isLt = (out0_B V c t h0 (outsAt0 V c (t.val - 1) (Nat.lt_of_le_of_lt (Nat.sub_le _ _) t.isLt))).1 := by
  rw [outsAt0, dif_neg h0]

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q _ := fullShare
  owed _ := 0

theorem A_eq0 (w : Fin cfg0.W) : (dat0 V c).A w = V c (Pipeline.arrRef spec0 w) := rfl

theorem after0_4 (t : Fin cfg0.N) : (dat0 V c).after 4 t = outsAt0 V c t.val t.isLt := rfl

theorem before0_in (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ ∀ d, (dat0 V c).before 3 t d = iblk0 V c 3 t := by
  refine ⟨?_, ?_, ?_, ?_⟩ <;> exact (dat0 V c).before_in_eq_fetched _ rfl (fun _ => rfl) (fun _ _ _ => rfl) (fun _ => rfl) t

theorem before0_4_B (t : Fin cfg0.N) (h0 : ¬t.val % 10 = 0) (d) :
    (dat0 V c).before 4 t d = outsAt0 V c (t.val - 1) (Nat.lt_of_le_of_lt (Nat.sub_le _ _) t.isLt) := by
  have hN : t.val < 20 := lt_of_lt_of_eq t.isLt N_0
  exact Dat.before_out_kept _ 4 rfl t (by omega) (Bool.eq_false_iff.mpr fun h => by have := (flush0_4 _).mp h; dsimp only at this; omega)
    (fun _ => rfl) (fun _ _ => rfl) d

theorem sound_body0 (t : Fin cfg0.N) :
    iprop((dat0 V c).Φ t.castSucc ∗ (dat0 V c).owesAt () t.castSucc
      ∗ (∃ d, owns c (st0_0 t) fullShare ((dat0 V c).before 0 t d))
      ∗ (∃ d, owns c (st0_1 t) fullShare ((dat0 V c).before 1 t d))
      ∗ (∃ d, owns c (st0_2 t) fullShare ((dat0 V c).before 2 t d))
      ∗ (∃ d, owns c (st0_3 t) fullShare ((dat0 V c).before 3 t d))
      ∗ (∃ d, owns c (st0_4 t) fullShare ((dat0 V c).before 4 t d)))
    ⊢ wp frame (wpE (defs₀ (F := F)) Variants.none c none) Set.univ (bodyAt0 t) fun _ =>
      iprop((dat0 V c).Φ t.castSucc ∗ (dat0 V c).owesAt () t.castSucc
        ∗ owns c (st0_0 t) fullShare (iblk0 V c 0 t)
        ∗ owns c (st0_1 t) fullShare (iblk0 V c 1 t)
        ∗ owns c (st0_2 t) fullShare (iblk0 V c 2 t)
        ∗ owns c (st0_3 t) fullShare (iblk0 V c 3 t)
        ∗ owns c (st0_4 t) fullShare (outsAt0 V c t.val t.isLt)) := by
  simp only [before0_in V c t]
  iintro ⟨HΦ, Ho, ⟨%d0, H0⟩, ⟨%d1, H1⟩, ⟨%d2, H2⟩, ⟨%d3, H3⟩, ⟨%d4, H4⟩⟩
  by_cases h0 : t.val % 10 = 0
  · rw [outsAt0_A V c t h0]; iapply (out0_A V c t h0).2 _ Set.univ _
    iframe H0 H1 H2 H3 H4; iintro ⟨H0, H1, H2, H3, H4⟩; iframe
  · rw [outsAt0_B V c t h0, before0_4_B V c t h0]; iapply (out0_B V c t h0 _).2 Set.univ _
    iframe H0 H1 H2 H3 H4; iintro ⟨H0, H1, H2, H3, H4⟩; iframe

theorem body_obligation0 : BodyObligation (dat0 (F := F) V c) (defs₀ (F := F)) Variants.none () Set.univ := fun t => by
  rw [bigSep_W0, bigSep_W0]
  exact sound_body0 V c t

end Cert.Kernel.Gen

end
-- ==== Proof.K.Reg1Runs.lean ====
import proofs.«421389_j87436944212793_2_alg».proof.Proof.Gen.Kernel.Launch
import proofs.«421389_j87436944212793_2_alg».proof.Proof.Gen.Kernel.Skeleton
import proofs.«421389_j87436944212793_2_alg».proof.Proof.Gen.Kernel.Points
import Idealize.ShloMosaic.Lib.Pipeline.FrameBody
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 20 = 0 :=
  (by decide +kernel : ∀ t : Fin grid1.N, cond1_0 (grid1.coords t) ↔ t.val % 20 = 0)

abbrev hs1_0 (t : Fin cfg1.N) : (st1_0 t).IsWhole := hstage1_0 ((cfg1.slots t 0).cast nbuf1_0)
abbrev hs1_1 (t : Fin cfg1.N) : (st1_1 t).IsWhole := hstage1_1 ((cfg1.slots t 1).cast nbuf1_1)
abbrev hs1_2 (t : Fin cfg1.N) : (st1_2 t).IsWhole := hstage1_2 ((cfg1.slots t 2).cast nbuf1_2)
abbrev hs1_3 (t : Fin cfg1.N) : (st1_3 t).IsWhole := hstage1_3 ((cfg1.slots t 3).cast nbuf1_3)
abbrev hs1_4 (t : Fin cfg1.N) : (st1_4 t).IsWhole := hstage1_4 ((cfg1.slots t 4).cast nbuf1_4)

variable {arg2 arg3 : Memref sig .tc .vmem S1024x1024 .bf16} {arg4 : Memref sig .tc .vmem S3x1024 .i32} {arg5 : Memref sig .tc .vmem S4x1024 .f32} {arg6 : Memref sig .tc .vmem S1x1024x4 .f32}
variable (c : Dev nD) (i : grid1.Coords) (harg2 : arg2.IsWhole) (harg3 : arg3.IsWhole) (harg4 : arg4.IsWhole) (harg5 : arg5.IsWhole) (harg6 : arg6.IsWhole)
  (x0 x1 : Vec F S1024x1024 .bf16) (x2 : Vec F S3x1024 .i32) (x3 : Vec F S4x1024 .f32)

/-- A whole memref owned at `x` is its raw contents that read `x`. -/
theorem owns_unread {s : Shape} {e : EltTy} {m : Memref sig .tc .vmem s e} (h : m.IsWhole) (x : Vec F s e) :
    (owns c m fullShare x : sProp 𝕄) = (m.view.loc (c : Thread nD τ) ↦[m.view.set]{fullShare} h.unread x) := by
  have h₁ : (owns c m fullShare x : sProp 𝕄) ⊢ (m.view.loc (c : Thread nD τ) ↦[m.view.set]{fullShare} h.unread x) := by
    unfold owns; iintro ⟨%f, %hf, H⟩; obtain rfl := h.eq_unread hf; iexact H
  have h₂ : (m.view.loc (c : Thread nD τ) ↦[m.view.set]{fullShare} h.unread x) ⊢ (owns c m fullShare x : sProp 𝕄) := by
    unfold owns; iintro H; iexists _; isplitr; · ipureintro; exact h.read_unread _
    iexact H
  exact BI.equiv_iff.mp ⟨h₁, h₂⟩

/-- The body's triple on whole buffers: the inputs hold `x0 … x3` and keep them, the output buffer goes from `P` to `Q`. -/
def run1 (P Q : sProp 𝕄) : Prop :=
  ∀ (E : Set ℕ) (K : PUnit → sProp 𝕄),
    iprop(owns c arg2 fullShare x0 ∗ owns c arg3 fullShare x1 ∗ owns c arg4 fullShare x2 ∗ owns c arg5 fullShare x3 ∗ P
        ∗ (iprop(owns c arg2 fullShare x0 ∗ owns c arg3 fullShare x1 ∗ owns c arg4 fullShare x2 ∗ owns c arg5 fullShare x3 ∗ Q) -∗ K ⟨⟩))
      ⊢ wp frame (wpE (defs₀ (F := F)) Variants.none c none) E (cc1__lambda_ i arg2 harg2 arg3 harg3 arg4 harg4 arg5 harg5 arg6 harg6) K

/-- Pieces that tile the output block overwrite all of it: the buffer then holds what they read back as, whatever it held. -/
theorem run1_out {P : sProp 𝕄} {L : List (View.Piece (Elt F) S1x1024x4 .f32)}
    (h : run1 c i harg2 harg3 harg4 harg5 harg6 x0 x1 x2 x3 P iprop(∃ f, arg6.view.loc (c : Thread nD τ) ↦[arg6.view.set]{fullShare} arg6.view.writes (Elt F) f L))
    (hL : View.Piece.tiledL L S1x1024x4.size = true) :
    run1 c i harg2 harg3 harg4 harg5 harg6 x0 x1 x2 x3 P (owns c arg6 fullShare (arg6.view.read (Elt F) (arg6.view.writes (Elt F) arg6.view.junk L))) := by
  intro E K
  iintro ⟨H0, H1, H2, H3, HP, Hk⟩
  iapply h E K
  iframe H0 H1 H2 H3 HP
  iintro ⟨H0, H1, H2, H3, ⟨%f, H4⟩⟩
  iapply Hk
  iframe H0 H1 H2 H3
  unfold owns; iexists _; isplitr
  swap; · iexact H4
  ipureintro; exact View.read_writes_of_cover _ _ _ _ _ (View.cover_of_tiledL _ _ hL)

end Cert.Kernel.Gen

end
-- ==== Proof.K.Reg1RunA.lean ====
import proofs.«421389_j87436944212793_2_alg».proof.Proof.K.Reg1Runs

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable {arg2 arg3 : Memref sig .tc .vmem S1024x1024 .bf16} {arg4 : Memref sig .tc .vmem S3x1024 .i32} {arg5 : Memref sig .tc .vmem S4x1024 .f32} {arg6 : Memref sig .tc .vmem S1x1024x4 .f32}
variable (c : Dev nD) (i : grid1.Coords) (harg2 : arg2.IsWhole) (harg3 : arg3.IsWhole) (harg4 : arg4.IsWhole) (harg5 : arg5.IsWhole) (harg6 : arg6.IsWhole)
  (x0 x1 : Vec F S1024x1024 .bf16) (x2 : Vec F S3x1024 .i32) (x3 : Vec F S4x1024 .f32)

/-- The reset case: the body first sets the output buffer to zero, so whatever that holds is lost. -/
def pieces1_A (hc0 : cond1_0 i) :
    { L // ∀ xo4, run1 c i harg2 harg3 harg4 harg5 harg6 x0 x1 x2 x3 (owns c arg6 fullShare xo4) iprop(∃ f, arg6.view.loc (c : Thread nD τ) ↦[arg6.view.set]{fullShare} arg6.view.writes (Elt F) f L) } := by
  refine ⟨?_, fun xo4 E K => ?run⟩
  case run =>
    simp only [cc1__lambda__eq_skeleton]; unfold cc1__lambda__skel
    simp only [k1_part1_eq_skeleton, k1_part2_eq_skeleton]
    rw [owns_unread c harg2, owns_unread c harg3, owns_unread c harg4, owns_unread c harg5, owns_unread c harg6]
    iintro ⟨H0, H1, H2, H3, H4, Hk⟩
    sl_exec (disch := first | exact hc0)
    sl_step
    iapply Hk
    iframe H0 H1 H2 H3
    iexists _; iexact H4

def kernelRun1_A (hc0 : cond1_0 i) : { o // ∀ xo4, run1 c i harg2 harg3 harg4 harg5 harg6 x0 x1 x2 x3 (owns c arg6 fullShare xo4) (owns c arg6 fullShare o) } :=
  ⟨_, fun xo4 => run1_out _ _ _ _ _ _ _ _ _ _ _ ((pieces1_A c i harg2 harg3 harg4 harg5 harg6 x0 x1 x2 x3 hc0).2 xo4) (by sl_kernel_rfl)⟩

end Cert.Kernel.Gen

end
-- ==== Proof.K.Reg1RunB.lean ====
import proofs.«421389_j87436944212793_2_alg».proof.Proof.K.Reg1RunA

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable {arg2 arg3 : Memref sig .tc .vmem S1024x1024 .bf16} {arg4 : Memref sig .tc .vmem S3x1024 .i32} {arg5 : Memref sig .tc .vmem S4x1024 .f32} {arg6 : Memref sig .tc .vmem S1x1024x4 .f32}
variable (c : Dev nD) (i : grid1.Coords) (harg2 : arg2.IsWhole) (harg3 : arg3.IsWhole) (harg4 : arg4.IsWhole) (harg5 : arg5.IsWhole) (harg6 : arg6.IsWhole)
  (x0 x1 : Vec F S1024x1024 .bf16) (x2 : Vec F S3x1024 .i32) (x3 : Vec F S4x1024 .f32)

/-- The accumulating case: the body adds to what the output buffer holds, `xo4`. -/
def pieces1_B (hc0 : ¬cond1_0 i) (xo4 : Vec F S1x1024x4 .f32) :
    { L // run1 c i harg2 harg3 harg4 harg5 harg6 x0 x1 x2 x3 (owns c arg6 fullShare xo4) iprop(∃ f, arg6.view.loc (c : Thread nD τ) ↦[arg6.view.set]{fullShare} arg6.view.writes (Elt F) f L) } := by
  refine ⟨?_, fun E K => ?run⟩
  case run =>
    simp only [cc1__lambda__eq_skeleton]; unfold cc1__lambda__skel
    simp only [k1_part1_eq_skeleton, k1_part2_eq_skeleton]
    rw [owns_unread c harg2, owns_unread c harg3, owns_unread c harg4, owns_unread c harg5, owns_unread c harg6]
    iintro ⟨H0, H1, H2, H3, H4, Hk⟩
    sl_exec (disch := first | exact hc0)
    sl_step
    iapply Hk
    iframe H0 H1 H2 H3
    iexists _; iexact H4

def kernelRun1_B (hc0 : ¬cond1_0 i) (xo4 : Vec F S1x1024x4 .f32) : { o // run1 c i harg2 harg3 harg4 harg5 harg6 x0 x1 x2 x3 (owns c arg6 fullShare xo4) (owns c arg6 fullShare o) } :=
  ⟨_, run1_out _ _ _ _ _ _ _ _ _ _ _ (pieces1_B c i harg2 harg3 harg4 harg5 harg6 x0 x1 x2 x3 hc0 xo4).2 (by sl_kernel_rfl)⟩

end Cert.Kernel.Gen

end
-- ==== Proof.K.Reg1Frame.lean ====
import proofs.«421389_j87436944212793_2_alg».proof.Proof.K.Reg1RunB

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b)) (c : Dev nD)

/-- The two runs at point `t`, on the blocks the region finds there. -/
def out1_A (t : Fin cfg1.N) (h0 : t.val % 20 = 0) :=
  kernelRun1_A c (grid1.coords t) (hs1_0 t) (hs1_1 t) (hs1_2 t) (hs1_3 t) (hs1_4 t) (iblk1 V c 0 t) (iblk1 V c 1 t) (iblk1 V c 2 t) (iblk1 V c 3 t) ((hcond1_0 t).mpr h0)
def out1_B (t : Fin cfg1.N) (h0 : ¬t.val % 20 = 0) :=
  kernelRun1_B c (grid1.coords t) (hs1_0 t) (hs1_1 t) (hs1_2 t) (hs1_3 t) (hs1_4 t) (iblk1 V c 0 t) (iblk1 V c 1 t) (iblk1 V c 2 t) (iblk1 V c 3 t) (mt (hcond1_0 t).mp h0)

/-- What the output buffer holds after the body at position `n`: a half's first tile resets it, every other tile adds to what the tile before left. -/
def outsAt1 (n : ℕ) (hn : n < cfg1.N) : Vec F S1x1024x4 .f32 :=
  if h0 : n % 20 = 0 then (out1_A V c ⟨n, hn⟩ h0).1 else (out1_B V c ⟨n, hn⟩ h0 (outsAt1 (n - 1) (by omega))).1
termination_by n
decreasing_by omega

theorem outsAt1_A (t : Fin cfg1.N) (h0 : t.val % 20 = 0) : outsAt1 V c t.val t.isLt = (out1_A V c t h0).1 := by
  rw [outsAt1, dif_pos h0]

theorem outsAt1_B (t : Fin cfg1.N) (h0 : ¬t.val % 20 = 0) :
    outsAt1 V c t.val t.isLt = (out1_B V c t h0 (outsAt1 V c (t.val - 1) (Nat.lt_of_le_of_lt (Nat.sub_le _ _) t.isLt))).1 := by
  rw [outsAt1, dif_neg h0]

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q _ := fullShare
  owed _ := 0

theorem A_eq1 (w : Fin cfg1.W) : (dat1 V c).A w = V c (Pipeline.arrRef spec1 w) := rfl

theorem after1_4 (t : Fin cfg1.N) : (dat1 V c).after 4 t = outsAt1 V c t.val t.isLt := rfl

theorem before1_in (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ ∀ d, (dat1 V c).before 3 t d = iblk1 V c 3 t := by
  refine ⟨?_, ?_, ?_, ?_⟩ <;> exact (dat1 V c).before_in_eq_fetched _ rfl (fun _ => rfl) (fun _ _ _ => rfl) (fun _ => rfl) t

theorem before1_4_B (t : Fin cfg1.N) (h0 : ¬t.val % 20 = 0) (d) :
    (dat1 V c).before 4 t d = outsAt1 V c (t.val - 1) (Nat.lt_of_le_of_lt (Nat.sub_le _ _) t.isLt) := by
  have hN : t.val < 40 := lt_of_lt_of_eq t.isLt N_1
  exact Dat.before_out_kept _ 4 rfl t (by omega) (Bool.eq_false_iff.mpr fun h => by have := (flush1_4 _).mp h; dsimp only at this; omega)
    (fun _ => rfl) (fun _ _ => rfl) d

theorem sound_body1 (t : Fin cfg1.N) :
    iprop((dat1 V c).Φ t.castSucc ∗ (dat1 V c).owesAt () t.castSucc
      ∗ (∃ d, owns c (st1_0 t) fullShare ((dat1 V c).before 0 t d))
      ∗ (∃ d, owns c (st1_1 t) fullShare ((dat1 V c).before 1 t d))
      ∗ (∃ d, owns c (st1_2 t) fullShare ((dat1 V c).before 2 t d))
      ∗ (∃ d, owns c (st1_3 t) fullShare ((dat1 V c).before 3 t d))
      ∗ (∃ d, owns c (st1_4 t) fullShare ((dat1 V c).before 4 t d)))
    ⊢ wp frame (wpE (defs₀ (F := F)) Variants.none c none) Set.univ (bodyAt1 t) fun _ =>
      iprop((dat1 V c).Φ t.castSucc ∗ (dat1 V c).owesAt () t.castSucc
        ∗ owns c (st1_0 t) fullShare (iblk1 V c 0 t)
        ∗ owns c (st1_1 t) fullShare (iblk1 V c 1 t)
        ∗ owns c (st1_2 t) fullShare (iblk1 V c 2 t)
        ∗ owns c (st1_3 t) fullShare (iblk1 V c 3 t)
        ∗ owns c (st1_4 t) fullShare (outsAt1 V c t.val t.isLt)) := by
  simp only [before1_in V c t]
  iintro ⟨HΦ, Ho, ⟨%d0, H0⟩, ⟨%d1, H1⟩, ⟨%d2, H2⟩, ⟨%d3, H3⟩, ⟨%d4, H4⟩⟩
  by_cases h0 : t.val % 20 = 0
  · rw [outsAt1_A V c t h0]; iapply (out1_A V c t h0).2 _ Set.univ _
    iframe H0 H1 H2 H3 H4; iintro ⟨H0, H1, H2, H3, H4⟩; iframe
  · rw [outsAt1_B V c t h0, before1_4_B V c t h0]; iapply (out1_B V c t h0 _).2 Set.univ _
    iframe H0 H1 H2 H3 H4; iintro ⟨H0, H1, H2, H3, H4⟩; iframe

theorem body_obligation1 : BodyObligation (dat1 (F := F) V c) (defs₀ (F := F)) Variants.none () Set.univ := fun t => by
  rw [bigSep_W1, bigSep_W1]
  exact sound_body1 V c t

end Cert.Kernel.Gen

end
-- ==== Proof.K.Reg2Runs.lean ====
import proofs.«421389_j87436944212793_2_alg».proof.Proof.Gen.Kernel.Launch
import proofs.«421389_j87436944212793_2_alg».proof.Proof.Gen.Kernel.Skeleton
import proofs.«421389_j87436944212793_2_alg».proof.Proof.Gen.Kernel.Points
import Idealize.ShloMosaic.Lib.Pipeline.FrameBody
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ
def iblk2 (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 30 = 0 :=
  (by decide +kernel : ∀ t : Fin grid2.N, cond2_0 (grid2.coords t) ↔ t.val % 30 = 0)

abbrev hs2_0 (t : Fin cfg2.N) : (st2_0 t).IsWhole := hstage2_0 ((cfg2.slots t 0).cast nbuf2_0)
abbrev hs2_1 (t : Fin cfg2.N) : (st2_1 t).IsWhole := hstage2_1 ((cfg2.slots t 1).cast nbuf2_1)
abbrev hs2_2 (t : Fin cfg2.N) : (st2_2 t).IsWhole := hstage2_2 ((cfg2.slots t 2).cast nbuf2_2)
abbrev hs2_3 (t : Fin cfg2.N) : (st2_3 t).IsWhole := hstage2_3 ((cfg2.slots t 3).cast nbuf2_3)
abbrev hs2_4 (t : Fin cfg2.N) : (st2_4 t).IsWhole := hstage2_4 ((cfg2.slots t 4).cast nbuf2_4)

variable {arg2 arg3 : Memref sig .tc .vmem S1024x1024 .bf16} {arg4 : Memref sig .tc .vmem S4x1024 .i32} {arg5 : Memref sig .tc .vmem S4x1024 .f32} {arg6 : Memref sig .tc .vmem S1x1024x4 .f32}
variable (c : Dev nD) (i : grid2.Coords) (harg2 : arg2.IsWhole) (harg3 : arg3.IsWhole) (harg4 : arg4.IsWhole) (harg5 : arg5.IsWhole) (harg6 : arg6.IsWhole)
  (x0 x1 : Vec F S1024x1024 .bf16) (x2 : Vec F S4x1024 .i32) (x3 : Vec F S4x1024 .f32)

/-- A whole memref owned at `x` is its raw contents that read `x`. -/
theorem owns_unread {s : Shape} {e : EltTy} {m : Memref sig .tc .vmem s e} (h : m.IsWhole) (x : Vec F s e) :
    (owns c m fullShare x : sProp 𝕄) = (m.view.loc (c : Thread nD τ) ↦[m.view.set]{fullShare} h.unread x) := by
  have h₁ : (owns c m fullShare x : sProp 𝕄) ⊢ (m.view.loc (c : Thread nD τ) ↦[m.view.set]{fullShare} h.unread x) := by
    unfold owns; iintro ⟨%f, %hf, H⟩; obtain rfl := h.eq_unread hf; iexact H
  have h₂ : (m.view.loc (c : Thread nD τ) ↦[m.view.set]{fullShare} h.unread x) ⊢ (owns c m fullShare x : sProp 𝕄) := by
    unfold owns; iintro H; iexists _; isplitr; · ipureintro; exact h.read_unread _
    iexact H
  exact BI.equiv_iff.mp ⟨h₁, h₂⟩

/-- The body's triple on whole buffers: the inputs hold `x0 … x3` and keep them, the output buffer goes from `P` to `Q`. -/
def run2 (P Q : sProp 𝕄) : Prop :=
  ∀ (E : Set ℕ) (K : PUnit → sProp 𝕄),
    iprop(owns c arg2 fullShare x0 ∗ owns c arg3 fullShare x1 ∗ owns c arg4 fullShare x2 ∗ owns c arg5 fullShare x3 ∗ P
        ∗ (iprop(owns c arg2 fullShare x0 ∗ owns c arg3 fullShare x1 ∗ owns c arg4 fullShare x2 ∗ owns c arg5 fullShare x3 ∗ Q) -∗ K ⟨⟩))
      ⊢ wp frame (wpE (defs₀ (F := F)) Variants.none c none) E (cc2__lambda_ i arg2 harg2 arg3 harg3 arg4 harg4 arg5 harg5 arg6 harg6) K

/-- Pieces that tile the output block overwrite all of it: the buffer then holds what they read back as, whatever it held. -/
theorem run2_out {P : sProp 𝕄} {L : List (View.Piece (Elt F) S1x1024x4 .f32)}
    (h : run2 c i harg2 harg3 harg4 harg5 harg6 x0 x1 x2 x3 P iprop(∃ f, arg6.view.loc (c : Thread nD τ) ↦[arg6.view.set]{fullShare} arg6.view.writes (Elt F) f L))
    (hL : View.Piece.tiledL L S1x1024x4.size = true) :
    run2 c i harg2 harg3 harg4 harg5 harg6 x0 x1 x2 x3 P (owns c arg6 fullShare (arg6.view.read (Elt F) (arg6.view.writes (Elt F) arg6.view.junk L))) := by
  intro E K
  iintro ⟨H0, H1, H2, H3, HP, Hk⟩
  iapply h E K
  iframe H0 H1 H2 H3 HP
  iintro ⟨H0, H1, H2, H3, ⟨%f, H4⟩⟩
  iapply Hk
  iframe H0 H1 H2 H3
  unfold owns; iexists _; isplitr
  swap; · iexact H4
  ipureintro; exact View.read_writes_of_cover _ _ _ _ _ (View.cover_of_tiledL _ _ hL)

end Cert.Kernel.Gen

end
-- ==== Proof.K.Reg2RunA.lean ====
import proofs.«421389_j87436944212793_2_alg».proof.Proof.K.Reg2Runs

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable {arg2 arg3 : Memref sig .tc .vmem S1024x1024 .bf16} {arg4 : Memref sig .tc .vmem S4x1024 .i32} {arg5 : Memref sig .tc .vmem S4x1024 .f32} {arg6 : Memref sig .tc .vmem S1x1024x4 .f32}
variable (c : Dev nD) (i : grid2.Coords) (harg2 : arg2.IsWhole) (harg3 : arg3.IsWhole) (harg4 : arg4.IsWhole) (harg5 : arg5.IsWhole) (harg6 : arg6.IsWhole)
  (x0 x1 : Vec F S1024x1024 .bf16) (x2 : Vec F S4x1024 .i32) (x3 : Vec F S4x1024 .f32)

/-- The reset case: the body first sets the output buffer to zero, so whatever that holds is lost. -/
def pieces2_A (hc0 : cond2_0 i) :
    { L // ∀ xo4, run2 c i harg2 harg3 harg4 harg5 harg6 x0 x1 x2 x3 (owns c arg6 fullShare xo4) iprop(∃ f, arg6.view.loc (c : Thread nD τ) ↦[arg6.view.set]{fullShare} arg6.view.writes (Elt F) f L) } := by
  refine ⟨?_, fun xo4 E K => ?run⟩
  case run =>
    simp only [cc2__lambda__eq_skeleton]; unfold cc2__lambda__skel
    simp only [k2_part1_eq_skeleton, k2_part2_eq_skeleton]
    rw [owns_unread c harg2, owns_unread c harg3, owns_unread c harg4, owns_unread c harg5, owns_unread c harg6]
    iintro ⟨H0, H1, H2, H3, H4, Hk⟩
    sl_exec (disch := first | exact hc0)
    sl_step
    iapply Hk
    iframe H0 H1 H2 H3
    iexists _; iexact H4

def kernelRun2_A (hc0 : cond2_0 i) : { o // ∀ xo4, run2 c i harg2 harg3 harg4 harg5 harg6 x0 x1 x2 x3 (owns c arg6 fullShare xo4) (owns c arg6 fullShare o) } :=
  ⟨_, fun xo4 => run2_out _ _ _ _ _ _ _ _ _ _ _ ((pieces2_A c i harg2 harg3 harg4 harg5 harg6 x0 x1 x2 x3 hc0).2 xo4) (by sl_kernel_rfl)⟩

end Cert.Kernel.Gen

end
-- ==== Proof.K.Reg2RunB.lean ====
import proofs.«421389_j87436944212793_2_alg».proof.Proof.K.Reg2RunA

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable {arg2 arg3 : Memref sig .tc .vmem S1024x1024 .bf16} {arg4 : Memref sig .tc .vmem S4x1024 .i32} {arg5 : Memref sig .tc .vmem S4x1024 .f32} {arg6 : Memref sig .tc .vmem S1x1024x4 .f32}
variable (c : Dev nD) (i : grid2.Coords) (harg2 : arg2.IsWhole) (harg3 : arg3.IsWhole) (harg4 : arg4.IsWhole) (harg5 : arg5.IsWhole) (harg6 : arg6.IsWhole)
  (x0 x1 : Vec F S1024x1024 .bf16) (x2 : Vec F S4x1024 .i32) (x3 : Vec F S4x1024 .f32)

/-- The accumulating case: the body adds to what the output buffer holds, `xo4`. -/
def pieces2_B (hc0 : ¬cond2_0 i) (xo4 : Vec F S1x1024x4 .f32) :
    { L // run2 c i harg2 harg3 harg4 harg5 harg6 x0 x1 x2 x3 (owns c arg6 fullShare xo4) iprop(∃ f, arg6.view.loc (c : Thread nD τ) ↦[arg6.view.set]{fullShare} arg6.view.writes (Elt F) f L) } := by
  refine ⟨?_, fun E K => ?run⟩
  case run =>
    simp only [cc2__lambda__eq_skeleton]; unfold cc2__lambda__skel
    simp only [k2_part1_eq_skeleton, k2_part2_eq_skeleton]
    rw [owns_unread c harg2, owns_unread c harg3, owns_unread c harg4, owns_unread c harg5, owns_unread c harg6]
    iintro ⟨H0, H1, H2, H3, H4, Hk⟩
    sl_exec (disch := first | exact hc0)
    sl_step
    iapply Hk
    iframe H0 H1 H2 H3
    iexists _; iexact H4

def kernelRun2_B (hc0 : ¬cond2_0 i) (xo4 : Vec F S1x1024x4 .f32) : { o // run2 c i harg2 harg3 harg4 harg5 harg6 x0 x1 x2 x3 (owns c arg6 fullShare xo4) (owns c arg6 fullShare o) } :=
  ⟨_, run2_out _ _ _ _ _ _ _ _ _ _ _ (pieces2_B c i harg2 harg3 harg4 harg5 harg6 x0 x1 x2 x3 hc0 xo4).2 (by sl_kernel_rfl)⟩

end Cert.Kernel.Gen

end
-- ==== Proof.K.Reg2Frame.lean ====
import proofs.«421389_j87436944212793_2_alg».proof.Proof.K.Reg2RunB

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b)) (c : Dev nD)

/-- The two runs at point `t`, on the blocks the region finds there. -/
def out2_A (t : Fin cfg2.N) (h0 : t.val % 30 = 0) :=
  kernelRun2_A c (grid2.coords t) (hs2_0 t) (hs2_1 t) (hs2_2 t) (hs2_3 t) (hs2_4 t) (iblk2 V c 0 t) (iblk2 V c 1 t) (iblk2 V c 2 t) (iblk2 V c 3 t) ((hcond2_0 t).mpr h0)
def out2_B (t : Fin cfg2.N) (h0 : ¬t.val % 30 = 0) :=
  kernelRun2_B c (grid2.coords t) (hs2_0 t) (hs2_1 t) (hs2_2 t) (hs2_3 t) (hs2_4 t) (iblk2 V c 0 t) (iblk2 V c 1 t) (iblk2 V c 2 t) (iblk2 V c 3 t) (mt (hcond2_0 t).mp h0)

/-- What the output buffer holds after the body at position `n`: a half's first tile resets it, every other tile adds to what the tile before left. -/
def outsAt2 (n : ℕ) (hn : n < cfg2.N) : Vec F S1x1024x4 .f32 :=
  if h0 : n % 30 = 0 then (out2_A V c ⟨n, hn⟩ h0).1 else (out2_B V c ⟨n, hn⟩ h0 (outsAt2 (n - 1) (by omega))).1
termination_by n
decreasing_by omega

theorem outsAt2_A (t : Fin cfg2.N) (h0 : t.val % 30 = 0) : outsAt2 V c t.val t.isLt = (out2_A V c t h0).1 := by
  rw [outsAt2, dif_pos h0]

theorem outsAt2_B (t : Fin cfg2.N) (h0 : ¬t.val % 30 = 0) :
    outsAt2 V c t.val t.isLt = (out2_B V c t h0 (outsAt2 V c (t.val - 1) (Nat.lt_of_le_of_lt (Nat.sub_le _ _) t.isLt))).1 := by
  rw [outsAt2, dif_neg h0]

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q _ := fullShare
  owed _ := 0

theorem A_eq2 (w : Fin cfg2.W) : (dat2 V c).A w = V c (Pipeline.arrRef spec2 w) := rfl

theorem after2_4 (t : Fin cfg2.N) : (dat2 V c).after 4 t = outsAt2 V c t.val t.isLt := rfl

theorem before2_in (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ ∀ d, (dat2 V c).before 3 t d = iblk2 V c 3 t := by
  refine ⟨?_, ?_, ?_, ?_⟩ <;> exact (dat2 V c).before_in_eq_fetched _ rfl (fun _ => rfl) (fun _ _ _ => rfl) (fun _ => rfl) t

theorem before2_4_B (t : Fin cfg2.N) (h0 : ¬t.val % 30 = 0) (d) :
    (dat2 V c).before 4 t d = outsAt2 V c (t.val - 1) (Nat.lt_of_le_of_lt (Nat.sub_le _ _) t.isLt) := by
  have hN : t.val < 60 := lt_of_lt_of_eq t.isLt N_2
  exact Dat.before_out_kept _ 4 rfl t (by omega) (Bool.eq_false_iff.mpr fun h => by have := (flush2_4 _).mp h; dsimp only at this; omega)
    (fun _ => rfl) (fun _ _ => rfl) d

theorem sound_body2 (t : Fin cfg2.N) :
    iprop((dat2 V c).Φ t.castSucc ∗ (dat2 V c).owesAt () t.castSucc
      ∗ (∃ d, owns c (st2_0 t) fullShare ((dat2 V c).before 0 t d))
      ∗ (∃ d, owns c (st2_1 t) fullShare ((dat2 V c).before 1 t d))
      ∗ (∃ d, owns c (st2_2 t) fullShare ((dat2 V c).before 2 t d))
      ∗ (∃ d, owns c (st2_3 t) fullShare ((dat2 V c).before 3 t d))
      ∗ (∃ d, owns c (st2_4 t) fullShare ((dat2 V c).before 4 t d)))
    ⊢ wp frame (wpE (defs₀ (F := F)) Variants.none c none) Set.univ (bodyAt2 t) fun _ =>
      iprop((dat2 V c).Φ t.castSucc ∗ (dat2 V c).owesAt () t.castSucc
        ∗ owns c (st2_0 t) fullShare (iblk2 V c 0 t)
        ∗ owns c (st2_1 t) fullShare (iblk2 V c 1 t)
        ∗ owns c (st2_2 t) fullShare (iblk2 V c 2 t)
        ∗ owns c (st2_3 t) fullShare (iblk2 V c 3 t)
        ∗ owns c (st2_4 t) fullShare (outsAt2 V c t.val t.isLt)) := by
  simp only [before2_in V c t]
  iintro ⟨HΦ, Ho, ⟨%d0, H0⟩, ⟨%d1, H1⟩, ⟨%d2, H2⟩, ⟨%d3, H3⟩, ⟨%d4, H4⟩⟩
  by_cases h0 : t.val % 30 = 0
  · rw [outsAt2_A V c t h0]; iapply (out2_A V c t h0).2 _ Set.univ _
    iframe H0 H1 H2 H3 H4; iintro ⟨H0, H1, H2, H3, H4⟩; iframe
  · rw [outsAt2_B V c t h0, before2_4_B V c t h0]; iapply (out2_B V c t h0 _).2 Set.univ _
    iframe H0 H1 H2 H3 H4; iintro ⟨H0, H1, H2, H3, H4⟩; iframe

theorem body_obligation2 : BodyObligation (dat2 (F := F) V c) (defs₀ (F := F)) Variants.none () Set.univ := fun t => by
  rw [bigSep_W2, bigSep_W2]
  exact sound_body2 V c t

end Cert.Kernel.Gen

end
-- ==== Proof.K.Asm.lean ====
import proofs.«421389_j87436944212793_2_alg».proof.Proof.K.Reg0Frame
import proofs.«421389_j87436944212793_2_alg».proof.Proof.K.Reg1Frame
import proofs.«421389_j87436944212793_2_alg».proof.Proof.K.Reg2Frame
import proofs.«421389_j87436944212793_2_alg».proof.Proof.Gen.Kernel.Regions
import Idealize.ShloMosaic.Lib.Pipeline.RegionsLoop
import Idealize.ShloMosaic.Lib.Pipeline.FrameSuffix

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Wn0 (c : Dev nD) : Valuation τ sig (Elt F) := V1 m c
abbrev En0 : (c : Dev nD) → (b : Ref sig .tc) → Buf (Elt F) ((c : Thread nD τ).loc b) := fun c b => Wn0 m c b
def arr0 (c : Dev nD) : Buf (Elt F) ((c : Thread nD τ).loc main_v21) := (dat0 (En0 m) c).arrAt 4 cfg0.N
def outsA : Outs (F := F) := fun J r c =>
  match J with
  | 2 => Function.update (fun r' : Ref sig .tc => (m ((c : Thread nD τ).loc r') : Buf (Elt F) ((c : Thread nD τ).loc r'))) main_v21 (arr0 m c) r
  | _ => m ((c : Thread nD τ).loc r)
abbrev Wn1 (c : Dev nD) : Valuation τ sig (Elt F) := V3 m (outsA m) c
abbrev En1 : (c : Dev nD) → (b : Ref sig .tc) → Buf (Elt F) ((c : Thread nD τ).loc b) := fun c b => Wn1 m c b
def arr1 (c : Dev nD) : Buf (Elt F) ((c : Thread nD τ).loc main_v27) := (dat1 (En1 m) c).arrAt 4 cfg1.N
def outsB : Outs (F := F) := fun J r c =>
  match J with
  | 4 => Function.update (fun r' : Ref sig .tc => (m ((c : Thread nD τ).loc r') : Buf (Elt F) ((c : Thread nD τ).loc r'))) main_v27 (arr1 m c) r
  | _ => outsA m J r c
abbrev Wn2 (c : Dev nD) : Valuation τ sig (Elt F) := V5 m (outsB m) c
abbrev En2 : (c : Dev nD) → (b : Ref sig .tc) → Buf (Elt F) ((c : Thread nD τ).loc b) := fun c b => Wn2 m c b
def arr2 (c : Dev nD) : Buf (Elt F) ((c : Thread nD τ).loc main_v33) := (dat2 (En2 m) c).arrAt 4 cfg2.N
def outs : Outs (F := F) := fun J r c =>
  match J with
  | 6 => Function.update (fun r' : Ref sig .tc => (m ((c : Thread nD τ).loc r') : Buf (Elt F) ((c : Thread nD τ).loc r'))) main_v33 (arr2 m c) r
  | _ => outsB m J r c

theorem outs_2 (c : Dev nD) : outs m 2 main_v21 c = arr0 m c := by simp only [outs, outsB, outsA, Function.update_self]
theorem outs_4 (c : Dev nD) : outs m 4 main_v27 c = arr1 m c := by simp only [outs, outsB, Function.update_self]
theorem outs_6 (c : Dev nD) : outs m 6 main_v33 c = arr2 m c := by simp only [outs, Function.update_self]

def pdats : (p : Fin 3) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c

abbrev Lz : GSem nD τ sig → Finset Unit := fun _ => ∅
abbrev lvz : GSem nD τ sig → Unit → ℕ := fun _ _ => 0
abbrev Rst (c : Dev nD) : sProp 𝕄 := iprop((∃ r, prngReg c r) ∗ ∃ W, owes (c : Thread nD τ) (0 : CellTallies nD τ sig Unit) W)
abbrev Est : Fin 4 → Dev nD → sProp 𝕄 := fun _ c => Rst c

set_option backward.isDefEq.respectTransparency.types false in
set_option maxHeartbeats 1000000 in
def regOf (p : Fin 3) (lf : Pipeline.LaunchFacts (nD := nD) (τ := τ) cfgs p)
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hΦ : ∀ c t, (pdats m p c).Φ t = Pipeline.ΦA (cfgs p).spec c)
    (Vi Vo : (c : Dev nD) → Valuation τ sig (Elt F))
    (hA : ∀ c w, (pdats m p c).A w = Vi c (Pipeline.arrRef (cfgs p).spec w))
    (hF : ∀ c w, (pdats m p c).arrAt w (cfgs p).N = Vo c (Pipeline.arrRef (cfgs p).spec w))
    (hrest : ∀ c, ∀ b : Ref sig .tc, b ∉ Finset.univ.image (Pipeline.arrRef (cfgs p).spec) → Vo c b = Vi c b) :
    Pipeline.RegionSeg (pcfgs (F := F)) adm (pdats m) () defs₀ Variants.none Lz lvz p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (Vi c) ∗ Rst c)
  post c := iprop(StableHlo.held (c : Thread nD τ) (Pipeline.ucRefs τ sig) (Vo c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b : Ref sig .tc => Vi c b)
  hentry c := by
    rw [Pipeline.ownSems0_none]
    have hsplit := Pipeline.arrays_of_unscopedBufs (p := p) (pcfgs (F := F)) adm (pdats m) lf.win lf.arr_whole c
      ((pdats m p c).share_full (hq c)) (fun b : Ref sig .tc => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (hrec c _ ▸ trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b : Ref sig .tc => Vi c b) (fun b : Ref sig .tc => Vo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

theorem hF_of {cfg : Pipeline.Cfg sig Λ₀} {c : Dev nD} (dat : Dat τ (Elt F) Unit ℕ (UR sig nD τ) ℕ cfg c)
    (Vi : Valuation τ sig (Elt F)) (o : Ref sig .tc) (x : Buf (Elt F) ((c : Thread nD τ).loc o))
    (hA : ∀ w, dat.A w = Vi (Pipeline.arrRef cfg.spec w)) (wo : Fin cfg.W) (ho : Pipeline.arrRef cfg.spec wo = o)
    (hout : HEq (dat.arrAt wo cfg.N) x)
    (hin : ∀ w, w ≠ wo → (cfg.win w).isOut = false ∧ Pipeline.arrRef cfg.spec w ≠ o) (w : Fin cfg.W) :
    dat.arrAt w cfg.N = Function.update Vi (Proc.devRef .tc o) x (Pipeline.arrRef cfg.spec w) := by
  by_cases hw : w = wo
  · subst hw; subst ho; rw [Function.update_self]; exact eq_of_heq hout
  · exact (dat.arrAt_in w (hin w hw).1 _).trans ((hA w).trans (Function.update_of_ne (StableHlo.devRef_ne_of_ne (hin w hw).2) _ _).symm)
theorem hrest_of {cfg : Pipeline.Cfg sig Λ₀} {c : Dev nD} (Vi : Valuation τ sig (Elt F)) (o : Ref sig .tc)
    (x : Buf (Elt F) ((c : Thread nD τ).loc o)) (wo : Fin cfg.W) (ho : Pipeline.arrRef cfg.spec wo = o)
    (b : Ref sig .tc) (hb : b ∉ Finset.univ.image (Pipeline.arrRef cfg.spec)) :
    Function.update Vi (Proc.devRef .tc o) x b = Vi b :=
  Function.update_of_ne (StableHlo.devRef_ne_of_ne fun h => hb (Finset.mem_image.mpr ⟨wo, Finset.mem_univ _, ho.trans h.symm⟩)) _ _

def reg0 : Pipeline.RegionSeg (pcfgs (F := F)) adm (pdats m) () defs₀ Variants.none Lz lvz 0 :=
  regOf m 0 launch0 (body_obligation0 (En0 m)) (fun _ _ => rfl) (fun _ _ => rfl) (fun _ _ => rfl) (fun _ _ => rfl) (Wn0 m) (V2 m (outs m)) (A_eq0 (En0 m))
    (fun c => hF_of (dat0 (En0 m) c) (V1 m c) main_v21 (outs m 2 main_v21 c) (A_eq0 (En0 m) c) 4 rfl (heq_of_eq (outs_2 m c).symm) (by decide))
    (fun c => hrest_of (cfg := cfg0) (V1 m c) main_v21 (outs m 2 main_v21 c) 4 rfl)
def reg1 : Pipeline.RegionSeg (pcfgs (F := F)) adm (pdats m) () defs₀ Variants.none Lz lvz 1 :=
  regOf m 1 launch1 (body_obligation1 (En1 m)) (fun _ _ => rfl) (fun _ _ => rfl) (fun _ _ => rfl) (fun _ _ => rfl) (Wn1 m) (V4 m (outs m)) (A_eq1 (En1 m))
    (fun c => hF_of (dat1 (En1 m) c) (V3 m (outs m) c) main_v27 (outs m 4 main_v27 c) (A_eq1 (En1 m) c) 4 rfl (heq_of_eq (outs_4 m c).symm) (by decide))
    (fun c => hrest_of (cfg := cfg1) (V3 m (outs m) c) main_v27 (outs m 4 main_v27 c) 4 rfl)
def reg2 : Pipeline.RegionSeg (pcfgs (F := F)) adm (pdats m) () defs₀ Variants.none Lz lvz 2 :=
  regOf m 2 launch2 (body_obligation2 (En2 m)) (fun _ _ => rfl) (fun _ _ => rfl) (fun _ _ => rfl) (fun _ _ => rfl) (Wn2 m) (V6 m (outs m)) (A_eq2 (En2 m))
    (fun c => hF_of (dat2 (En2 m) c) (V5 m (outs m) c) main_v33 (outs m 6 main_v33 c) (A_eq2 (En2 m) c) 4 rfl (heq_of_eq (outs_6 m c).symm) (by decide))
    (fun c => hrest_of (cfg := cfg2) (V5 m (outs m) c) main_v33 (outs m 6 main_v33 c) 4 rfl)

theorem own_init : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
def frame := frame_cond m emb₁ () Variants.none Lz lvz (fun _ _ => rfl) ρ (outs m) (pdats m) 0 (fun _ => iprop(emp)) _ own_init Est
  (Pipeline.initEach Lz lvz fun c => by
    iintro ⟨⟨-, HO, -, Hp, -⟩, -⟩
    imodintro
    isplitl [Hp]; · iexists _; iexact Hp
    iexists ∅; iexact HO)
  (fun c => by iintro ⟨-, HO⟩; iexact HO)
  (reg0 m) (fun _ => .rfl) (fun _ => .rfl) (reg1 m) (fun _ => .rfl) (fun _ => .rfl) (reg2 m) (fun _ => .rfl) (fun _ => .rfl)

end Cert.Kernel.Gen

end
-- ==== Proof.KI.Reg0Runs.lean ====
import proofs.«421389_j87436944212793_2_alg».proof.Proof.Gen.KernelIdeal.Launch
import proofs.«421389_j87436944212793_2_alg».proof.Proof.Gen.KernelIdeal.Skeleton
import proofs.«421389_j87436944212793_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ
def iblk0 (V : (c : Dev nD) → (b : Ref sig .tc) → Buf (Elt F) ((c : Thread nD τ).loc b)) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 10 = 0 :=
  (by decide +kernel : ∀ t : Fin grid0.N, cond0_0 (grid0.coords t) ↔ t.val % 10 = 0)

abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)
abbrev hs0_4 (t : Fin cfg0.N) : (st0_4 t).IsWhole := hstage0_4 ((cfg0.slots t 4).cast nbuf0_4)

variable {arg2 arg3 : Memref sig .tc .vmem S1024x1024 .bf16} {arg4 : Memref sig .tc .vmem S2x1024 .i32} {arg5 : Memref sig .tc .vmem S4x1024 .f32} {arg6 : Memref sig .tc .vmem S1x1024x4 .f32}
variable (c : Dev nD) (i : grid0.Coords) (harg2 : arg2.IsWhole) (harg3 : arg3.IsWhole) (harg4 : arg4.IsWhole) (harg5 : arg5.IsWhole) (harg6 : arg6.IsWhole)
  (x0 x1 : Vec F S1024x1024 .bf16) (x2 : Vec F S2x1024 .i32) (x3 : Vec F S4x1024 .f32)

/-- A whole memref owned at `x` is its raw contents that read `x`. -/
theorem owns_unread {s : Shape} {e : EltTy} {m : Memref sig .tc .vmem s e} (h : m.IsWhole) (x : Vec F s e) :
    (owns c m fullShare x : sProp 𝕄) = (m.view.loc (c : Thread nD τ) ↦[m.view.set]{fullShare} h.unread x) := by
  have h₁ : (owns c m fullShare x : sProp 𝕄) ⊢ (m.view.loc (c : Thread nD τ) ↦[m.view.set]{fullShare} h.unread x) := by
    unfold owns; iintro ⟨%f, %hf, H⟩; obtain rfl := h.eq_unread hf; iexact H
  have h₂ : (m.view.loc (c : Thread nD τ) ↦[m.view.set]{fullShare} h.unread x) ⊢ (owns c m fullShare x : sProp 𝕄) := by
    unfold owns; iintro H; iexists _; isplitr; · ipureintro; exact h.read_unread _
    iexact H
  exact BI.equiv_iff.mp ⟨h₁, h₂⟩

/-- The body's triple on whole buffers: the inputs hold `x0 … x3` and keep them, the output buffer goes from `P` to `Q`. -/
def run0 (P Q : sProp 𝕄) : Prop :=
  ∀ (E : Set ℕ) (K : PUnit → sProp 𝕄),
    iprop(owns c arg2 fullShare x0 ∗ owns c arg3 fullShare x1 ∗ owns c arg4 fullShare x2 ∗ owns c arg5 fullShare x3 ∗ P
        ∗ (iprop(owns c arg2 fullShare x0 ∗ owns c arg3 fullShare x1 ∗ owns c arg4 fullShare x2 ∗ owns c arg5 fullShare x3 ∗ Q) -∗ K ⟨⟩))
      ⊢ wp frame (wpE (defs₀ (F := F)) Variants.none c none) E (cc0__lambda_ i arg2 harg2 arg3 harg3 arg4 harg4 arg5 harg5 arg6 harg6) K

/-- Pieces that tile the output block overwrite all of it: the buffer then holds what they read back as, whatever it held. -/
theorem run0_out {P : sProp 𝕄} {L : List (View.Piece (Elt F) S1x1024x4 .f32)}
    (h : run0 c i harg2 harg3 harg4 harg5 harg6 x0 x1 x2 x3 P iprop(∃ f, arg6.view.loc (c : Thread nD τ) ↦[arg6.view.set]{fullShare} arg6.view.writes (Elt F) f L))
    (hL : View.Piece.tiledL L S1x1024x4.size = true) :
    run0 c i harg2 harg3 harg4 harg5 harg6 x0 x1 x2 x3 P (owns c arg6 fullShare (arg6.view.read (Elt F) (arg6.view.writes (Elt F) arg6.view.junk L))) := by
  intro E K
  iintro ⟨H0, H1, H2, H3, HP, Hk⟩
  iapply h E K
  iframe H0 H1 H2 H3 HP
  iintro ⟨H0, H1, H2, H3, ⟨%f, H4⟩⟩
  iapply Hk
  iframe H0 H1 H2 H3
  unfold owns; iexists _; isplitr
  swap; · iexact H4
  ipureintro; exact View.read_writes_of_cover _ _ _ _ _ (View.cover_of_tiledL _ _ hL)

end Cert.KernelIdeal.Gen

end
-- ==== Proof.KI.Reg0RunA.lean ====
import proofs.«421389_j87436944212793_2_alg».proof.Proof.KI.Reg0Runs

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable {arg2 arg3 : Memref sig .tc .vmem S1024x1024 .bf16} {arg4 : Memref sig .tc .vmem S2x1024 .i32} {arg5 : Memref sig .tc .vmem S4x1024 .f32} {arg6 : Memref sig .tc .vmem S1x1024x4 .f32}
variable (c : Dev nD) (i : grid0.Coords) (harg2 : arg2.IsWhole) (harg3 : arg3.IsWhole) (harg4 : arg4.IsWhole) (harg5 : arg5.IsWhole) (harg6 : arg6.IsWhole)
  (x0 x1 : Vec F S1024x1024 .bf16) (x2 : Vec F S2x1024 .i32) (x3 : Vec F S4x1024 .f32)

/-- The reset case: the body first sets the output buffer to zero, so whatever that holds is lost. -/
def pieces0_A (hc0 : cond0_0 i) :
    { L // ∀ xo4, run0 c i harg2 harg3 harg4 harg5 harg6 x0 x1 x2 x3 (owns c arg6 fullShare xo4) iprop(∃ f, arg6.view.loc (c : Thread nD τ) ↦[arg6.view.set]{fullShare} arg6.view.writes (Elt F) f L) } := by
  refine ⟨?_, fun xo4 E K => ?run⟩
  case run =>
    simp only [cc0__lambda__eq_skeleton]; unfold cc0__lambda__skel
    simp only [k0_part1_eq_skeleton]
    rw [owns_unread c harg2, owns_unread c harg3, owns_unread c harg4, owns_unread c harg5, owns_unread c harg6]
    iintro ⟨H0, H1, H2, H3, H4, Hk⟩
    sl_exec (disch := first | exact hc0)
    sl_step
    iapply Hk
    iframe H0 H1 H2 H3
    iexists _; iexact H4

def kernelRun0_A (hc0 : cond0_0 i) : { o // ∀ xo4, run0 c i harg2 harg3 harg4 harg5 harg6 x0 x1 x2 x3 (owns c arg6 fullShare xo4) (owns c arg6 fullShare o) } :=
  ⟨_, fun xo4 => run0_out _ _ _ _ _ _ _ _ _ _ _ ((pieces0_A c i harg2 harg3 harg4 harg5 harg6 x0 x1 x2 x3 hc0).2 xo4) (by sl_kernel_rfl)⟩

end Cert.KernelIdeal.Gen

end
-- ==== Proof.KI.Reg0RunB.lean ====
import proofs.«421389_j87436944212793_2_alg».proof.Proof.KI.Reg0RunA

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable {arg2 arg3 : Memref sig .tc .vmem S1024x1024 .bf16} {arg4 : Memref sig .tc .vmem S2x1024 .i32} {arg5 : Memref sig .tc .vmem S4x1024 .f32} {arg6 : Memref sig .tc .vmem S1x1024x4 .f32}
variable (c : Dev nD) (i : grid0.Coords) (harg2 : arg2.IsWhole) (harg3 : arg3.IsWhole) (harg4 : arg4.IsWhole) (harg5 : arg5.IsWhole) (harg6 : arg6.IsWhole)
  (x0 x1 : Vec F S1024x1024 .bf16) (x2 : Vec F S2x1024 .i32) (x3 : Vec F S4x1024 .f32)

/-- The accumulating case: the body adds to what the output buffer holds, `xo4`. -/
def pieces0_B (hc0 : ¬cond0_0 i) (xo4 : Vec F S1x1024x4 .f32) :
    { L // run0 c i harg2 harg3 harg4 harg5 harg6 x0 x1 x2 x3 (owns c arg6 fullShare xo4) iprop(∃ f, arg6.view.loc (c : Thread nD τ) ↦[arg6.view.set]{fullShare} arg6.view.writes (Elt F) f L) } := by
  refine ⟨?_, fun E K => ?run⟩
  case run =>
    simp only [cc0__lambda__eq_skeleton]; unfold cc0__lambda__skel
    simp only [k0_part1_eq_skeleton]
    rw [owns_unread c harg2, owns_unread c harg3, owns_unread c harg4, owns_unread c harg5, owns_unread c harg6]
    iintro ⟨H0, H1, H2, H3, H4, Hk⟩
    sl_exec (disch := first | exact hc0)
    sl_step
    iapply Hk
    iframe H0 H1 H2 H3
    iexists _; iexact H4

def kernelRun0_B (hc0 : ¬cond0_0 i) (xo4 : Vec F S1x1024x4 .f32) : { o // run0 c i harg2 harg3 harg4 harg5 harg6 x0 x1 x2 x3 (owns c arg6 fullShare xo4) (owns c arg6 fullShare o) } :=
  ⟨_, run0_out _ _ _ _ _ _ _ _ _ _ _ (pieces0_B c i harg2 harg3 harg4 harg5 harg6 x0 x1 x2 x3 hc0 xo4).2 (by sl_kernel_rfl)⟩

end Cert.KernelIdeal.Gen

end
-- ==== Proof.KI.Reg0Frame.lean ====
import proofs.«421389_j87436944212793_2_alg».proof.Proof.KI.Reg0RunB

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b)) (c : Dev nD)

/-- The two runs at point `t`, on the blocks the region finds there. -/
def out0_A (t : Fin cfg0.N) (h0 : t.val % 10 = 0) :=
  kernelRun0_A c (grid0.coords t) (hs0_0 t) (hs0_1 t) (hs0_2 t) (hs0_3 t) (hs0_4 t) (iblk0 V c 0 t) (iblk0 V c 1 t) (iblk0 V c 2 t) (iblk0 V c 3 t) ((hcond0_0 t).mpr h0)
def out0_B (t : Fin cfg0.N) (h0 : ¬t.val % 10 = 0) :=
  kernelRun0_B c (grid0.coords t) (hs0_0 t) (hs0_1 t) (hs0_2 t) (hs0_3 t) (hs0_4 t) (iblk0 V c 0 t) (iblk0 V c 1 t) (iblk0 V c 2 t) (iblk0 V c 3 t) (mt (hcond0_0 t).mp h0)

/-- What the output buffer holds after the body at position `n`: a half's first tile resets it, every other tile adds to what the tile before left. -/
def outsAt0 (n : ℕ) (hn : n < cfg0.N) : Vec F S1x1024x4 .f32 :=
  if h0 : n % 10 = 0 then (out0_A V c ⟨n, hn⟩ h0).1 else (out0_B V c ⟨n, hn⟩ h0 (outsAt0 (n - 1) (by omega))).1
termination_by n
decreasing_by omega

theorem outsAt0_A (t : Fin cfg0.N) (h0 : t.val % 10 = 0) : outsAt0 V c t.val t.isLt = (out0_A V c t h0).1 := by
  rw [outsAt0, dif_pos h0]

theorem outsAt0_B (t : Fin cfg0.N) (h0 : ¬t.val % 10 = 0) :
    outsAt0 V c t.val t.isLt = (out0_B V c t h0 (outsAt0 V c (t.val - 1) (Nat.lt_of_le_of_lt (Nat.sub_le _ _) t.isLt))).1 := by
  rw [outsAt0, dif_neg h0]

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q _ := fullShare
  owed _ := 0

theorem A_eq0 (w : Fin cfg0.W) : (dat0 V c).A w = V c (Pipeline.arrRef spec0 w) := rfl

theorem after0_4 (t : Fin cfg0.N) : (dat0 V c).after 4 t = outsAt0 V c t.val t.isLt := rfl

theorem before0_in (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ ∀ d, (dat0 V c).before 3 t d = iblk0 V c 3 t := by
  refine ⟨?_, ?_, ?_, ?_⟩ <;> exact (dat0 V c).before_in_eq_fetched _ rfl (fun _ => rfl) (fun _ _ _ => rfl) (fun _ => rfl) t

theorem before0_4_B (t : Fin cfg0.N) (h0 : ¬t.val % 10 = 0) (d) :
    (dat0 V c).before 4 t d = outsAt0 V c (t.val - 1) (Nat.lt_of_le_of_lt (Nat.sub_le _ _) t.isLt) := by
  have hN : t.val < 20 := lt_of_lt_of_eq t.isLt N_0
  exact Dat.before_out_kept _ 4 rfl t (by omega) (Bool.eq_false_iff.mpr fun h => by have := (flush0_4 _).mp h; dsimp only at this; omega)
    (fun _ => rfl) (fun _ _ => rfl) d

theorem sound_body0 (t : Fin cfg0.N) :
    iprop((dat0 V c).Φ t.castSucc ∗ (dat0 V c).owesAt () t.castSucc
      ∗ (∃ d, owns c (st0_0 t) fullShare ((dat0 V c).before 0 t d))
      ∗ (∃ d, owns c (st0_1 t) fullShare ((dat0 V c).before 1 t d))
      ∗ (∃ d, owns c (st0_2 t) fullShare ((dat0 V c).before 2 t d))
      ∗ (∃ d, owns c (st0_3 t) fullShare ((dat0 V c).before 3 t d))
      ∗ (∃ d, owns c (st0_4 t) fullShare ((dat0 V c).before 4 t d)))
    ⊢ wp frame (wpE (defs₀ (F := F)) Variants.none c none) Set.univ (bodyAt0 t) fun _ =>
      iprop((dat0 V c).Φ t.castSucc ∗ (dat0 V c).owesAt () t.castSucc
        ∗ owns c (st0_0 t) fullShare (iblk0 V c 0 t)
        ∗ owns c (st0_1 t) fullShare (iblk0 V c 1 t)
        ∗ owns c (st0_2 t) fullShare (iblk0 V c 2 t)
        ∗ owns c (st0_3 t) fullShare (iblk0 V c 3 t)
        ∗ owns c (st0_4 t) fullShare (outsAt0 V c t.val t.isLt)) := by
  simp only [before0_in V c t]
  iintro ⟨HΦ, Ho, ⟨%d0, H0⟩, ⟨%d1, H1⟩, ⟨%d2, H2⟩, ⟨%d3, H3⟩, ⟨%d4, H4⟩⟩
  by_cases h0 : t.val % 10 = 0
  · rw [outsAt0_A V c t h0]; iapply (out0_A V c t h0).2 _ Set.univ _
    iframe H0 H1 H2 H3 H4; iintro ⟨H0, H1, H2, H3, H4⟩; iframe
  · rw [outsAt0_B V c t h0, before0_4_B V c t h0]; iapply (out0_B V c t h0 _).2 Set.univ _
    iframe H0 H1 H2 H3 H4; iintro ⟨H0, H1, H2, H3, H4⟩; iframe

theorem body_obligation0 : BodyObligation (dat0 (F := F) V c) (defs₀ (F := F)) Variants.none () Set.univ := fun t => by
  rw [bigSep_W0, bigSep_W0]
  exact sound_body0 V c t

end Cert.KernelIdeal.Gen

end
-- ==== Proof.KI.Reg1Runs.lean ====
import proofs.«421389_j87436944212793_2_alg».proof.Proof.Gen.KernelIdeal.Launch
import proofs.«421389_j87436944212793_2_alg».proof.Proof.Gen.KernelIdeal.Skeleton
import proofs.«421389_j87436944212793_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 20 = 0 :=
  (by decide +kernel : ∀ t : Fin grid1.N, cond1_0 (grid1.coords t) ↔ t.val % 20 = 0)

abbrev hs1_0 (t : Fin cfg1.N) : (st1_0 t).IsWhole := hstage1_0 ((cfg1.slots t 0).cast nbuf1_0)
abbrev hs1_1 (t : Fin cfg1.N) : (st1_1 t).IsWhole := hstage1_1 ((cfg1.slots t 1).cast nbuf1_1)
abbrev hs1_2 (t : Fin cfg1.N) : (st1_2 t).IsWhole := hstage1_2 ((cfg1.slots t 2).cast nbuf1_2)
abbrev hs1_3 (t : Fin cfg1.N) : (st1_3 t).IsWhole := hstage1_3 ((cfg1.slots t 3).cast nbuf1_3)
abbrev hs1_4 (t : Fin cfg1.N) : (st1_4 t).IsWhole := hstage1_4 ((cfg1.slots t 4).cast nbuf1_4)

variable {arg2 arg3 : Memref sig .tc .vmem S1024x1024 .bf16} {arg4 : Memref sig .tc .vmem S3x1024 .i32} {arg5 : Memref sig .tc .vmem S4x1024 .f32} {arg6 : Memref sig .tc .vmem S1x1024x4 .f32}
variable (c : Dev nD) (i : grid1.Coords) (harg2 : arg2.IsWhole) (harg3 : arg3.IsWhole) (harg4 : arg4.IsWhole) (harg5 : arg5.IsWhole) (harg6 : arg6.IsWhole)
  (x0 x1 : Vec F S1024x1024 .bf16) (x2 : Vec F S3x1024 .i32) (x3 : Vec F S4x1024 .f32)

/-- A whole memref owned at `x` is its raw contents that read `x`. -/
theorem owns_unread {s : Shape} {e : EltTy} {m : Memref sig .tc .vmem s e} (h : m.IsWhole) (x : Vec F s e) :
    (owns c m fullShare x : sProp 𝕄) = (m.view.loc (c : Thread nD τ) ↦[m.view.set]{fullShare} h.unread x) := by
  have h₁ : (owns c m fullShare x : sProp 𝕄) ⊢ (m.view.loc (c : Thread nD τ) ↦[m.view.set]{fullShare} h.unread x) := by
    unfold owns; iintro ⟨%f, %hf, H⟩; obtain rfl := h.eq_unread hf; iexact H
  have h₂ : (m.view.loc (c : Thread nD τ) ↦[m.view.set]{fullShare} h.unread x) ⊢ (owns c m fullShare x : sProp 𝕄) := by
    unfold owns; iintro H; iexists _; isplitr; · ipureintro; exact h.read_unread _
    iexact H
  exact BI.equiv_iff.mp ⟨h₁, h₂⟩

/-- The body's triple on whole buffers: the inputs hold `x0 … x3` and keep them, the output buffer goes from `P` to `Q`. -/
def run1 (P Q : sProp 𝕄) : Prop :=
  ∀ (E : Set ℕ) (K : PUnit → sProp 𝕄),
    iprop(owns c arg2 fullShare x0 ∗ owns c arg3 fullShare x1 ∗ owns c arg4 fullShare x2 ∗ owns c arg5 fullShare x3 ∗ P
        ∗ (iprop(owns c arg2 fullShare x0 ∗ owns c arg3 fullShare x1 ∗ owns c arg4 fullShare x2 ∗ owns c arg5 fullShare x3 ∗ Q) -∗ K ⟨⟩))
      ⊢ wp frame (wpE (defs₀ (F := F)) Variants.none c none) E (cc1__lambda_ i arg2 harg2 arg3 harg3 arg4 harg4 arg5 harg5 arg6 harg6) K

/-- Pieces that tile the output block overwrite all of it: the buffer then holds what they read back as, whatever it held. -/
theorem run1_out {P : sProp 𝕄} {L : List (View.Piece (Elt F) S1x1024x4 .f32)}
    (h : run1 c i harg2 harg3 harg4 harg5 harg6 x0 x1 x2 x3 P iprop(∃ f, arg6.view.loc (c : Thread nD τ) ↦[arg6.view.set]{fullShare} arg6.view.writes (Elt F) f L))
    (hL : View.Piece.tiledL L S1x1024x4.size = true) :
    run1 c i harg2 harg3 harg4 harg5 harg6 x0 x1 x2 x3 P (owns c arg6 fullShare (arg6.view.read (Elt F) (arg6.view.writes (Elt F) arg6.view.junk L))) := by
  intro E K
  iintro ⟨H0, H1, H2, H3, HP, Hk⟩
  iapply h E K
  iframe H0 H1 H2 H3 HP
  iintro ⟨H0, H1, H2, H3, ⟨%f, H4⟩⟩
  iapply Hk
  iframe H0 H1 H2 H3
  unfold owns; iexists _; isplitr
  swap; · iexact H4
  ipureintro; exact View.read_writes_of_cover _ _ _ _ _ (View.cover_of_tiledL _ _ hL)

end Cert.KernelIdeal.Gen

end
-- ==== Proof.KI.Reg1RunA.lean ====
import proofs.«421389_j87436944212793_2_alg».proof.Proof.KI.Reg1Runs

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable {arg2 arg3 : Memref sig .tc .vmem S1024x1024 .bf16} {arg4 : Memref sig .tc .vmem S3x1024 .i32} {arg5 : Memref sig .tc .vmem S4x1024 .f32} {arg6 : Memref sig .tc .vmem S1x1024x4 .f32}
variable (c : Dev nD) (i : grid1.Coords) (harg2 : arg2.IsWhole) (harg3 : arg3.IsWhole) (harg4 : arg4.IsWhole) (harg5 : arg5.IsWhole) (harg6 : arg6.IsWhole)
  (x0 x1 : Vec F S1024x1024 .bf16) (x2 : Vec F S3x1024 .i32) (x3 : Vec F S4x1024 .f32)

/-- The reset case: the body first sets the output buffer to zero, so whatever that holds is lost. -/
def pieces1_A (hc0 : cond1_0 i) :
    { L // ∀ xo4, run1 c i harg2 harg3 harg4 harg5 harg6 x0 x1 x2 x3 (owns c arg6 fullShare xo4) iprop(∃ f, arg6.view.loc (c : Thread nD τ) ↦[arg6.view.set]{fullShare} arg6.view.writes (Elt F) f L) } := by
  refine ⟨?_, fun xo4 E K => ?run⟩
  case run =>
    simp only [cc1__lambda__eq_skeleton]; unfold cc1__lambda__skel
    simp only [k1_part1_eq_skeleton, k1_part2_eq_skeleton]
    rw [owns_unread c harg2, owns_unread c harg3, owns_unread c harg4, owns_unread c harg5, owns_unread c harg6]
    iintro ⟨H0, H1, H2, H3, H4, Hk⟩
    sl_exec (disch := first | exact hc0)
    sl_step
    iapply Hk
    iframe H0 H1 H2 H3
    iexists _; iexact H4

def kernelRun1_A (hc0 : cond1_0 i) : { o // ∀ xo4, run1 c i harg2 harg3 harg4 harg5 harg6 x0 x1 x2 x3 (owns c arg6 fullShare xo4) (owns c arg6 fullShare o) } :=
  ⟨_, fun xo4 => run1_out _ _ _ _ _ _ _ _ _ _ _ ((pieces1_A c i harg2 harg3 harg4 harg5 harg6 x0 x1 x2 x3 hc0).2 xo4) (by sl_kernel_rfl)⟩

end Cert.KernelIdeal.Gen

end
-- ==== Proof.KI.Reg1RunB.lean ====
import proofs.«421389_j87436944212793_2_alg».proof.Proof.KI.Reg1RunA

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable {arg2 arg3 : Memref sig .tc .vmem S1024x1024 .bf16} {arg4 : Memref sig .tc .vmem S3x1024 .i32} {arg5 : Memref sig .tc .vmem S4x1024 .f32} {arg6 : Memref sig .tc .vmem S1x1024x4 .f32}
variable (c : Dev nD) (i : grid1.Coords) (harg2 : arg2.IsWhole) (harg3 : arg3.IsWhole) (harg4 : arg4.IsWhole) (harg5 : arg5.IsWhole) (harg6 : arg6.IsWhole)
  (x0 x1 : Vec F S1024x1024 .bf16) (x2 : Vec F S3x1024 .i32) (x3 : Vec F S4x1024 .f32)

/-- The accumulating case: the body adds to what the output buffer holds, `xo4`. -/
def pieces1_B (hc0 : ¬cond1_0 i) (xo4 : Vec F S1x1024x4 .f32) :
    { L // run1 c i harg2 harg3 harg4 harg5 harg6 x0 x1 x2 x3 (owns c arg6 fullShare xo4) iprop(∃ f, arg6.view.loc (c : Thread nD τ) ↦[arg6.view.set]{fullShare} arg6.view.writes (Elt F) f L) } := by
  refine ⟨?_, fun E K => ?run⟩
  case run =>
    simp only [cc1__lambda__eq_skeleton]; unfold cc1__lambda__skel
    simp only [k1_part1_eq_skeleton, k1_part2_eq_skeleton]
    rw [owns_unread c harg2, owns_unread c harg3, owns_unread c harg4, owns_unread c harg5, owns_unread c harg6]
    iintro ⟨H0, H1, H2, H3, H4, Hk⟩
    sl_exec (disch := first | exact hc0)
    sl_step
    iapply Hk
    iframe H0 H1 H2 H3
    iexists _; iexact H4

def kernelRun1_B (hc0 : ¬cond1_0 i) (xo4 : Vec F S1x1024x4 .f32) : { o // run1 c i harg2 harg3 harg4 harg5 harg6 x0 x1 x2 x3 (owns c arg6 fullShare xo4) (owns c arg6 fullShare o) } :=
  ⟨_, run1_out _ _ _ _ _ _ _ _ _ _ _ (pieces1_B c i harg2 harg3 harg4 harg5 harg6 x0 x1 x2 x3 hc0 xo4).2 (by sl_kernel_rfl)⟩

end Cert.KernelIdeal.Gen

end
-- ==== Proof.KI.Reg1Frame.lean ====
import proofs.«421389_j87436944212793_2_alg».proof.Proof.KI.Reg1RunB

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b)) (c : Dev nD)

/-- The two runs at point `t`, on the blocks the region finds there. -/
def out1_A (t : Fin cfg1.N) (h0 : t.val % 20 = 0) :=
  kernelRun1_A c (grid1.coords t) (hs1_0 t) (hs1_1 t) (hs1_2 t) (hs1_3 t) (hs1_4 t) (iblk1 V c 0 t) (iblk1 V c 1 t) (iblk1 V c 2 t) (iblk1 V c 3 t) ((hcond1_0 t).mpr h0)
def out1_B (t : Fin cfg1.N) (h0 : ¬t.val % 20 = 0) :=
  kernelRun1_B c (grid1.coords t) (hs1_0 t) (hs1_1 t) (hs1_2 t) (hs1_3 t) (hs1_4 t) (iblk1 V c 0 t) (iblk1 V c 1 t) (iblk1 V c 2 t) (iblk1 V c 3 t) (mt (hcond1_0 t).mp h0)

/-- What the output buffer holds after the body at position `n`: a half's first tile resets it, every other tile adds to what the tile before left. -/
def outsAt1 (n : ℕ) (hn : n < cfg1.N) : Vec F S1x1024x4 .f32 :=
  if h0 : n % 20 = 0 then (out1_A V c ⟨n, hn⟩ h0).1 else (out1_B V c ⟨n, hn⟩ h0 (outsAt1 (n - 1) (by omega))).1
termination_by n
decreasing_by omega

theorem outsAt1_A (t : Fin cfg1.N) (h0 : t.val % 20 = 0) : outsAt1 V c t.val t.isLt = (out1_A V c t h0).1 := by
  rw [outsAt1, dif_pos h0]

theorem outsAt1_B (t : Fin cfg1.N) (h0 : ¬t.val % 20 = 0) :
    outsAt1 V c t.val t.isLt = (out1_B V c t h0 (outsAt1 V c (t.val - 1) (Nat.lt_of_le_of_lt (Nat.sub_le _ _) t.isLt))).1 := by
  rw [outsAt1, dif_neg h0]

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q _ := fullShare
  owed _ := 0

theorem A_eq1 (w : Fin cfg1.W) : (dat1 V c).A w = V c (Pipeline.arrRef spec1 w) := rfl

theorem after1_4 (t : Fin cfg1.N) : (dat1 V c).after 4 t = outsAt1 V c t.val t.isLt := rfl

theorem before1_in (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ ∀ d, (dat1 V c).before 3 t d = iblk1 V c 3 t := by
  refine ⟨?_, ?_, ?_, ?_⟩ <;> exact (dat1 V c).before_in_eq_fetched _ rfl (fun _ => rfl) (fun _ _ _ => rfl) (fun _ => rfl) t

theorem before1_4_B (t : Fin cfg1.N) (h0 : ¬t.val % 20 = 0) (d) :
    (dat1 V c).before 4 t d = outsAt1 V c (t.val - 1) (Nat.lt_of_le_of_lt (Nat.sub_le _ _) t.isLt) := by
  have hN : t.val < 40 := lt_of_lt_of_eq t.isLt N_1
  exact Dat.before_out_kept _ 4 rfl t (by omega) (Bool.eq_false_iff.mpr fun h => by have := (flush1_4 _).mp h; dsimp only at this; omega)
    (fun _ => rfl) (fun _ _ => rfl) d

theorem sound_body1 (t : Fin cfg1.N) :
    iprop((dat1 V c).Φ t.castSucc ∗ (dat1 V c).owesAt () t.castSucc
      ∗ (∃ d, owns c (st1_0 t) fullShare ((dat1 V c).before 0 t d))
      ∗ (∃ d, owns c (st1_1 t) fullShare ((dat1 V c).before 1 t d))
      ∗ (∃ d, owns c (st1_2 t) fullShare ((dat1 V c).before 2 t d))
      ∗ (∃ d, owns c (st1_3 t) fullShare ((dat1 V c).before 3 t d))
      ∗ (∃ d, owns c (st1_4 t) fullShare ((dat1 V c).before 4 t d)))
    ⊢ wp frame (wpE (defs₀ (F := F)) Variants.none c none) Set.univ (bodyAt1 t) fun _ =>
      iprop((dat1 V c).Φ t.castSucc ∗ (dat1 V c).owesAt () t.castSucc
        ∗ owns c (st1_0 t) fullShare (iblk1 V c 0 t)
        ∗ owns c (st1_1 t) fullShare (iblk1 V c 1 t)
        ∗ owns c (st1_2 t) fullShare (iblk1 V c 2 t)
        ∗ owns c (st1_3 t) fullShare (iblk1 V c 3 t)
        ∗ owns c (st1_4 t) fullShare (outsAt1 V c t.val t.isLt)) := by
  simp only [before1_in V c t]
  iintro ⟨HΦ, Ho, ⟨%d0, H0⟩, ⟨%d1, H1⟩, ⟨%d2, H2⟩, ⟨%d3, H3⟩, ⟨%d4, H4⟩⟩
  by_cases h0 : t.val % 20 = 0
  · rw [outsAt1_A V c t h0]; iapply (out1_A V c t h0).2 _ Set.univ _
    iframe H0 H1 H2 H3 H4; iintro ⟨H0, H1, H2, H3, H4⟩; iframe
  · rw [outsAt1_B V c t h0, before1_4_B V c t h0]; iapply (out1_B V c t h0 _).2 Set.univ _
    iframe H0 H1 H2 H3 H4; iintro ⟨H0, H1, H2, H3, H4⟩; iframe

theorem body_obligation1 : BodyObligation (dat1 (F := F) V c) (defs₀ (F := F)) Variants.none () Set.univ := fun t => by
  rw [bigSep_W1, bigSep_W1]
  exact sound_body1 V c t

end Cert.KernelIdeal.Gen

end
-- ==== Proof.KI.Reg2Runs.lean ====
import proofs.«421389_j87436944212793_2_alg».proof.Proof.Gen.KernelIdeal.Launch
import proofs.«421389_j87436944212793_2_alg».proof.Proof.Gen.KernelIdeal.Skeleton
import proofs.«421389_j87436944212793_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ
def iblk2 (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 30 = 0 :=
  (by decide +kernel : ∀ t : Fin grid2.N, cond2_0 (grid2.coords t) ↔ t.val % 30 = 0)

abbrev hs2_0 (t : Fin cfg2.N) : (st2_0 t).IsWhole := hstage2_0 ((cfg2.slots t 0).cast nbuf2_0)
abbrev hs2_1 (t : Fin cfg2.N) : (st2_1 t).IsWhole := hstage2_1 ((cfg2.slots t 1).cast nbuf2_1)
abbrev hs2_2 (t : Fin cfg2.N) : (st2_2 t).IsWhole := hstage2_2 ((cfg2.slots t 2).cast nbuf2_2)
abbrev hs2_3 (t : Fin cfg2.N) : (st2_3 t).IsWhole := hstage2_3 ((cfg2.slots t 3).cast nbuf2_3)
abbrev hs2_4 (t : Fin cfg2.N) : (st2_4 t).IsWhole := hstage2_4 ((cfg2.slots t 4).cast nbuf2_4)

variable {arg2 arg3 : Memref sig .tc .vmem S1024x1024 .bf16} {arg4 : Memref sig .tc .vmem S4x1024 .i32} {arg5 : Memref sig .tc .vmem S4x1024 .f32} {arg6 : Memref sig .tc .vmem S1x1024x4 .f32}
variable (c : Dev nD) (i : grid2.Coords) (harg2 : arg2.IsWhole) (harg3 : arg3.IsWhole) (harg4 : arg4.IsWhole) (harg5 : arg5.IsWhole) (harg6 : arg6.IsWhole)
  (x0 x1 : Vec F S1024x1024 .bf16) (x2 : Vec F S4x1024 .i32) (x3 : Vec F S4x1024 .f32)

/-- A whole memref owned at `x` is its raw contents that read `x`. -/
theorem owns_unread {s : Shape} {e : EltTy} {m : Memref sig .tc .vmem s e} (h : m.IsWhole) (x : Vec F s e) :
    (owns c m fullShare x : sProp 𝕄) = (m.view.loc (c : Thread nD τ) ↦[m.view.set]{fullShare} h.unread x) := by
  have h₁ : (owns c m fullShare x : sProp 𝕄) ⊢ (m.view.loc (c : Thread nD τ) ↦[m.view.set]{fullShare} h.unread x) := by
    unfold owns; iintro ⟨%f, %hf, H⟩; obtain rfl := h.eq_unread hf; iexact H
  have h₂ : (m.view.loc (c : Thread nD τ) ↦[m.view.set]{fullShare} h.unread x) ⊢ (owns c m fullShare x : sProp 𝕄) := by
    unfold owns; iintro H; iexists _; isplitr; · ipureintro; exact h.read_unread _
    iexact H
  exact BI.equiv_iff.mp ⟨h₁, h₂⟩

/-- The body's triple on whole buffers: the inputs hold `x0 … x3` and keep them, the output buffer goes from `P` to `Q`. -/
def run2 (P Q : sProp 𝕄) : Prop :=
  ∀ (E : Set ℕ) (K : PUnit → sProp 𝕄),
    iprop(owns c arg2 fullShare x0 ∗ owns c arg3 fullShare x1 ∗ owns c arg4 fullShare x2 ∗ owns c arg5 fullShare x3 ∗ P
        ∗ (iprop(owns c arg2 fullShare x0 ∗ owns c arg3 fullShare x1 ∗ owns c arg4 fullShare x2 ∗ owns c arg5 fullShare x3 ∗ Q) -∗ K ⟨⟩))
      ⊢ wp frame (wpE (defs₀ (F := F)) Variants.none c none) E (cc2__lambda_ i arg2 harg2 arg3 harg3 arg4 harg4 arg5 harg5 arg6 harg6) K

/-- Pieces that tile the output block overwrite all of it: the buffer then holds what they read back as, whatever it held. -/
theorem run2_out {P : sProp 𝕄} {L : List (View.Piece (Elt F) S1x1024x4 .f32)}
    (h : run2 c i harg2 harg3 harg4 harg5 harg6 x0 x1 x2 x3 P iprop(∃ f, arg6.view.loc (c : Thread nD τ) ↦[arg6.view.set]{fullShare} arg6.view.writes (Elt F) f L))
    (hL : View.Piece.tiledL L S1x1024x4.size = true) :
    run2 c i harg2 harg3 harg4 harg5 harg6 x0 x1 x2 x3 P (owns c arg6 fullShare (arg6.view.read (Elt F) (arg6.view.writes (Elt F) arg6.view.junk L))) := by
  intro E K
  iintro ⟨H0, H1, H2, H3, HP, Hk⟩
  iapply h E K
  iframe H0 H1 H2 H3 HP
  iintro ⟨H0, H1, H2, H3, ⟨%f, H4⟩⟩
  iapply Hk
  iframe H0 H1 H2 H3
  unfold owns; iexists _; isplitr
  swap; · iexact H4
  ipureintro; exact View.read_writes_of_cover _ _ _ _ _ (View.cover_of_tiledL _ _ hL)

end Cert.KernelIdeal.Gen

end
-- ==== Proof.KI.Reg2RunA.lean ====
import proofs.«421389_j87436944212793_2_alg».proof.Proof.KI.Reg2Runs

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable {arg2 arg3 : Memref sig .tc .vmem S1024x1024 .bf16} {arg4 : Memref sig .tc .vmem S4x1024 .i32} {arg5 : Memref sig .tc .vmem S4x1024 .f32} {arg6 : Memref sig .tc .vmem S1x1024x4 .f32}
variable (c : Dev nD) (i : grid2.Coords) (harg2 : arg2.IsWhole) (harg3 : arg3.IsWhole) (harg4 : arg4.IsWhole) (harg5 : arg5.IsWhole) (harg6 : arg6.IsWhole)
  (x0 x1 : Vec F S1024x1024 .bf16) (x2 : Vec F S4x1024 .i32) (x3 : Vec F S4x1024 .f32)

/-- The reset case: the body first sets the output buffer to zero, so whatever that holds is lost. -/
def pieces2_A (hc0 : cond2_0 i) :
    { L // ∀ xo4, run2 c i harg2 harg3 harg4 harg5 harg6 x0 x1 x2 x3 (owns c arg6 fullShare xo4) iprop(∃ f, arg6.view.loc (c : Thread nD τ) ↦[arg6.view.set]{fullShare} arg6.view.writes (Elt F) f L) } := by
  refine ⟨?_, fun xo4 E K => ?run⟩
  case run =>
    simp only [cc2__lambda__eq_skeleton]; unfold cc2__lambda__skel
    simp only [k2_part1_eq_skeleton, k2_part2_eq_skeleton]
    rw [owns_unread c harg2, owns_unread c harg3, owns_unread c harg4, owns_unread c harg5, owns_unread c harg6]
    iintro ⟨H0, H1, H2, H3, H4, Hk⟩
    sl_exec (disch := first | exact hc0)
    sl_step
    iapply Hk
    iframe H0 H1 H2 H3
    iexists _; iexact H4

def kernelRun2_A (hc0 : cond2_0 i) : { o // ∀ xo4, run2 c i harg2 harg3 harg4 harg5 harg6 x0 x1 x2 x3 (owns c arg6 fullShare xo4) (owns c arg6 fullShare o) } :=
  ⟨_, fun xo4 => run2_out _ _ _ _ _ _ _ _ _ _ _ ((pieces2_A c i harg2 harg3 harg4 harg5 harg6 x0 x1 x2 x3 hc0).2 xo4) (by sl_kernel_rfl)⟩

end Cert.KernelIdeal.Gen

end
-- ==== Proof.KI.Reg2RunB.lean ====
import proofs.«421389_j87436944212793_2_alg».proof.Proof.KI.Reg2RunA

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable {arg2 arg3 : Memref sig .tc .vmem S1024x1024 .bf16} {arg4 : Memref sig .tc .vmem S4x1024 .i32} {arg5 : Memref sig .tc .vmem S4x1024 .f32} {arg6 : Memref sig .tc .vmem S1x1024x4 .f32}
variable (c : Dev nD) (i : grid2.Coords) (harg2 : arg2.IsWhole) (harg3 : arg3.IsWhole) (harg4 : arg4.IsWhole) (harg5 : arg5.IsWhole) (harg6 : arg6.IsWhole)
  (x0 x1 : Vec F S1024x1024 .bf16) (x2 : Vec F S4x1024 .i32) (x3 : Vec F S4x1024 .f32)

/-- The accumulating case: the body adds to what the output buffer holds, `xo4`. -/
def pieces2_B (hc0 : ¬cond2_0 i) (xo4 : Vec F S1x1024x4 .f32) :
    { L // run2 c i harg2 harg3 harg4 harg5 harg6 x0 x1 x2 x3 (owns c arg6 fullShare xo4) iprop(∃ f, arg6.view.loc (c : Thread nD τ) ↦[arg6.view.set]{fullShare} arg6.view.writes (Elt F) f L) } := by
  refine ⟨?_, fun E K => ?run⟩
  case run =>
    simp only [cc2__lambda__eq_skeleton]; unfold cc2__lambda__skel
    simp only [k2_part1_eq_skeleton, k2_part2_eq_skeleton]
    rw [owns_unread c harg2, owns_unread c harg3, owns_unread c harg4, owns_unread c harg5, owns_unread c harg6]
    iintro ⟨H0, H1, H2, H3, H4, Hk⟩
    sl_exec (disch := first | exact hc0)
    sl_step
    iapply Hk
    iframe H0 H1 H2 H3
    iexists _; iexact H4

def kernelRun2_B (hc0 : ¬cond2_0 i) (xo4 : Vec F S1x1024x4 .f32) : { o // run2 c i harg2 harg3 harg4 harg5 harg6 x0 x1 x2 x3 (owns c arg6 fullShare xo4) (owns c arg6 fullShare o) } :=
  ⟨_, run2_out _ _ _ _ _ _ _ _ _ _ _ (pieces2_B c i harg2 harg3 harg4 harg5 harg6 x0 x1 x2 x3 hc0 xo4).2 (by sl_kernel_rfl)⟩

end Cert.KernelIdeal.Gen

end
-- ==== Proof.KI.Reg2Frame.lean ====
import proofs.«421389_j87436944212793_2_alg».proof.Proof.KI.Reg2RunB

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b)) (c : Dev nD)

/-- The two runs at point `t`, on the blocks the region finds there. -/
def out2_A (t : Fin cfg2.N) (h0 : t.val % 30 = 0) :=
  kernelRun2_A c (grid2.coords t) (hs2_0 t) (hs2_1 t) (hs2_2 t) (hs2_3 t) (hs2_4 t) (iblk2 V c 0 t) (iblk2 V c 1 t) (iblk2 V c 2 t) (iblk2 V c 3 t) ((hcond2_0 t).mpr h0)
def out2_B (t : Fin cfg2.N) (h0 : ¬t.val % 30 = 0) :=
  kernelRun2_B c (grid2.coords t) (hs2_0 t) (hs2_1 t) (hs2_2 t) (hs2_3 t) (hs2_4 t) (iblk2 V c 0 t) (iblk2 V c 1 t) (iblk2 V c 2 t) (iblk2 V c 3 t) (mt (hcond2_0 t).mp h0)

/-- What the output buffer holds after the body at position `n`: a half's first tile resets it, every other tile adds to what the tile before left. -/
def outsAt2 (n : ℕ) (hn : n < cfg2.N) : Vec F S1x1024x4 .f32 :=
  if h0 : n % 30 = 0 then (out2_A V c ⟨n, hn⟩ h0).1 else (out2_B V c ⟨n, hn⟩ h0 (outsAt2 (n - 1) (by omega))).1
termination_by n
decreasing_by omega

theorem outsAt2_A (t : Fin cfg2.N) (h0 : t.val % 30 = 0) : outsAt2 V c t.val t.isLt = (out2_A V c t h0).1 := by
  rw [outsAt2, dif_pos h0]

theorem outsAt2_B (t : Fin cfg2.N) (h0 : ¬t.val % 30 = 0) :
    outsAt2 V c t.val t.isLt = (out2_B V c t h0 (outsAt2 V c (t.val - 1) (Nat.lt_of_le_of_lt (Nat.sub_le _ _) t.isLt))).1 := by
  rw [outsAt2, dif_neg h0]

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q _ := fullShare
  owed _ := 0

theorem A_eq2 (w : Fin cfg2.W) : (dat2 V c).A w = V c (Pipeline.arrRef spec2 w) := rfl

theorem after2_4 (t : Fin cfg2.N) : (dat2 V c).after 4 t = outsAt2 V c t.val t.isLt := rfl

theorem before2_in (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ ∀ d, (dat2 V c).before 3 t d = iblk2 V c 3 t := by
  refine ⟨?_, ?_, ?_, ?_⟩ <;> exact (dat2 V c).before_in_eq_fetched _ rfl (fun _ => rfl) (fun _ _ _ => rfl) (fun _ => rfl) t

theorem before2_4_B (t : Fin cfg2.N) (h0 : ¬t.val % 30 = 0) (d) :
    (dat2 V c).before 4 t d = outsAt2 V c (t.val - 1) (Nat.lt_of_le_of_lt (Nat.sub_le _ _) t.isLt) := by
  have hN : t.val < 60 := lt_of_lt_of_eq t.isLt N_2
  exact Dat.before_out_kept _ 4 rfl t (by omega) (Bool.eq_false_iff.mpr fun h => by have := (flush2_4 _).mp h; dsimp only at this; omega)
    (fun _ => rfl) (fun _ _ => rfl) d

theorem sound_body2 (t : Fin cfg2.N) :
    iprop((dat2 V c).Φ t.castSucc ∗ (dat2 V c).owesAt () t.castSucc
      ∗ (∃ d, owns c (st2_0 t) fullShare ((dat2 V c).before 0 t d))
      ∗ (∃ d, owns c (st2_1 t) fullShare ((dat2 V c).before 1 t d))
      ∗ (∃ d, owns c (st2_2 t) fullShare ((dat2 V c).before 2 t d))
      ∗ (∃ d, owns c (st2_3 t) fullShare ((dat2 V c).before 3 t d))
      ∗ (∃ d, owns c (st2_4 t) fullShare ((dat2 V c).before 4 t d)))
    ⊢ wp frame (wpE (defs₀ (F := F)) Variants.none c none) Set.univ (bodyAt2 t) fun _ =>
      iprop((dat2 V c).Φ t.castSucc ∗ (dat2 V c).owesAt () t.castSucc
        ∗ owns c (st2_0 t) fullShare (iblk2 V c 0 t)
        ∗ owns c (st2_1 t) fullShare (iblk2 V c 1 t)
        ∗ owns c (st2_2 t) fullShare (iblk2 V c 2 t)
        ∗ owns c (st2_3 t) fullShare (iblk2 V c 3 t)
        ∗ owns c (st2_4 t) fullShare (outsAt2 V c t.val t.isLt)) := by
  simp only [before2_in V c t]
  iintro ⟨HΦ, Ho, ⟨%d0, H0⟩, ⟨%d1, H1⟩, ⟨%d2, H2⟩, ⟨%d3, H3⟩, ⟨%d4, H4⟩⟩
  by_cases h0 : t.val % 30 = 0
  · rw [outsAt2_A V c t h0]; iapply (out2_A V c t h0).2 _ Set.univ _
    iframe H0 H1 H2 H3 H4; iintro ⟨H0, H1, H2, H3, H4⟩; iframe
  · rw [outsAt2_B V c t h0, before2_4_B V c t h0]; iapply (out2_B V c t h0 _).2 Set.univ _
    iframe H0 H1 H2 H3 H4; iintro ⟨H0, H1, H2, H3, H4⟩; iframe

theorem body_obligation2 : BodyObligation (dat2 (F := F) V c) (defs₀ (F := F)) Variants.none () Set.univ := fun t => by
  rw [bigSep_W2, bigSep_W2]
  exact sound_body2 V c t

end Cert.KernelIdeal.Gen

end
-- ==== Proof.KI.Asm.lean ====
import proofs.«421389_j87436944212793_2_alg».proof.Proof.KI.Reg0Frame
import proofs.«421389_j87436944212793_2_alg».proof.Proof.KI.Reg1Frame
import proofs.«421389_j87436944212793_2_alg».proof.Proof.KI.Reg2Frame
import proofs.«421389_j87436944212793_2_alg».proof.Proof.Gen.KernelIdeal.Regions
import Idealize.ShloMosaic.Lib.Pipeline.RegionsLoop
import Idealize.ShloMosaic.Lib.Pipeline.FrameSuffix

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Wn0 (c : Dev nD) : Valuation τ sig (Elt F) := V1 m c
abbrev En0 : (c : Dev nD) → (b : Ref sig .tc) → Buf (Elt F) ((c : Thread nD τ).loc b) := fun c b => Wn0 m c b
def arr0 (c : Dev nD) : Buf (Elt F) ((c : Thread nD τ).loc main_v21) := (dat0 (En0 m) c).arrAt 4 cfg0.N
def outsA : Outs (F := F) := fun J r c =>
  match J with
  | 2 => Function.update (fun r' : Ref sig .tc => (m ((c : Thread nD τ).loc r') : Buf (Elt F) ((c : Thread nD τ).loc r'))) main_v21 (arr0 m c) r
  | _ => m ((c : Thread nD τ).loc r)
abbrev Wn1 (c : Dev nD) : Valuation τ sig (Elt F) := V3 m (outsA m) c
abbrev En1 : (c : Dev nD) → (b : Ref sig .tc) → Buf (Elt F) ((c : Thread nD τ).loc b) := fun c b => Wn1 m c b
def arr1 (c : Dev nD) : Buf (Elt F) ((c : Thread nD τ).loc main_v27) := (dat1 (En1 m) c).arrAt 4 cfg1.N
def outsB : Outs (F := F) := fun J r c =>
  match J with
  | 4 => Function.update (fun r' : Ref sig .tc => (m ((c : Thread nD τ).loc r') : Buf (Elt F) ((c : Thread nD τ).loc r'))) main_v27 (arr1 m c) r
  | _ => outsA m J r c
abbrev Wn2 (c : Dev nD) : Valuation τ sig (Elt F) := V5 m (outsB m) c
abbrev En2 : (c : Dev nD) → (b : Ref sig .tc) → Buf (Elt F) ((c : Thread nD τ).loc b) := fun c b => Wn2 m c b
def arr2 (c : Dev nD) : Buf (Elt F) ((c : Thread nD τ).loc main_v33) := (dat2 (En2 m) c).arrAt 4 cfg2.N
def outs : Outs (F := F) := fun J r c =>
  match J with
  | 6 => Function.update (fun r' : Ref sig .tc => (m ((c : Thread nD τ).loc r') : Buf (Elt F) ((c : Thread nD τ).loc r'))) main_v33 (arr2 m c) r
  | _ => outsB m J r c

theorem outs_2 (c : Dev nD) : outs m 2 main_v21 c = arr0 m c := by simp only [outs, outsB, outsA, Function.update_self]
theorem outs_4 (c : Dev nD) : outs m 4 main_v27 c = arr1 m c := by simp only [outs, outsB, Function.update_self]
theorem outs_6 (c : Dev nD) : outs m 6 main_v33 c = arr2 m c := by simp only [outs, Function.update_self]

def pdats : (p : Fin 3) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c

abbrev Lz : GSem nD τ sig → Finset Unit := fun _ => ∅
abbrev lvz : GSem nD τ sig → Unit → ℕ := fun _ _ => 0
abbrev Rst (c : Dev nD) : sProp 𝕄 := iprop((∃ r, prngReg c r) ∗ ∃ W, owes (c : Thread nD τ) (0 : CellTallies nD τ sig Unit) W)
abbrev Est : Fin 4 → Dev nD → sProp 𝕄 := fun _ c => Rst c

set_option backward.isDefEq.respectTransparency.types false in
set_option maxHeartbeats 1000000 in
def regOf (p : Fin 3) (lf : Pipeline.LaunchFacts (nD := nD) (τ := τ) cfgs p)
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hΦ : ∀ c t, (pdats m p c).Φ t = Pipeline.ΦA (cfgs p).spec c)
    (Vi Vo : (c : Dev nD) → Valuation τ sig (Elt F))
    (hA : ∀ c w, (pdats m p c).A w = Vi c (Pipeline.arrRef (cfgs p).spec w))
    (hF : ∀ c w, (pdats m p c).arrAt w (cfgs p).N = Vo c (Pipeline.arrRef (cfgs p).spec w))
    (hrest : ∀ c, ∀ b : Ref sig .tc, b ∉ Finset.univ.image (Pipeline.arrRef (cfgs p).spec) → Vo c b = Vi c b) :
    Pipeline.RegionSeg (pcfgs (F := F)) adm (pdats m) () defs₀ Variants.none Lz lvz p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (Vi c) ∗ Rst c)
  post c := iprop(StableHlo.held (c : Thread nD τ) (Pipeline.ucRefs τ sig) (Vo c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b : Ref sig .tc => Vi c b)
  hentry c := by
    rw [Pipeline.ownSems0_none]
    have hsplit := Pipeline.arrays_of_unscopedBufs (p := p) (pcfgs (F := F)) adm (pdats m) lf.win lf.arr_whole c
      ((pdats m p c).share_full (hq c)) (fun b : Ref sig .tc => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (hrec c _ ▸ trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b : Ref sig .tc => Vi c b) (fun b : Ref sig .tc => Vo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

theorem hF_of {cfg : Pipeline.Cfg sig Λ₀} {c : Dev nD} (dat : Dat τ (Elt F) Unit ℕ (UR sig nD τ) ℕ cfg c)
    (Vi : Valuation τ sig (Elt F)) (o : Ref sig .tc) (x : Buf (Elt F) ((c : Thread nD τ).loc o))
    (hA : ∀ w, dat.A w = Vi (Pipeline.arrRef cfg.spec w)) (wo : Fin cfg.W) (ho : Pipeline.arrRef cfg.spec wo = o)
    (hout : HEq (dat.arrAt wo cfg.N) x)
    (hin : ∀ w, w ≠ wo → (cfg.win w).isOut = false ∧ Pipeline.arrRef cfg.spec w ≠ o) (w : Fin cfg.W) :
    dat.arrAt w cfg.N = Function.update Vi (Proc.devRef .tc o) x (Pipeline.arrRef cfg.spec w) := by
  by_cases hw : w = wo
  · subst hw; subst ho; rw [Function.update_self]; exact eq_of_heq hout
  · exact (dat.arrAt_in w (hin w hw).1 _).trans ((hA w).trans (Function.update_of_ne (StableHlo.devRef_ne_of_ne (hin w hw).2) _ _).symm)
theorem hrest_of {cfg : Pipeline.Cfg sig Λ₀} {c : Dev nD} (Vi : Valuation τ sig (Elt F)) (o : Ref sig .tc)
    (x : Buf (Elt F) ((c : Thread nD τ).loc o)) (wo : Fin cfg.W) (ho : Pipeline.arrRef cfg.spec wo = o)
    (b : Ref sig .tc) (hb : b ∉ Finset.univ.image (Pipeline.arrRef cfg.spec)) :
    Function.update Vi (Proc.devRef .tc o) x b = Vi b :=
  Function.update_of_ne (StableHlo.devRef_ne_of_ne fun h => hb (Finset.mem_image.mpr ⟨wo, Finset.mem_univ _, ho.trans h.symm⟩)) _ _

def reg0 : Pipeline.RegionSeg (pcfgs (F := F)) adm (pdats m) () defs₀ Variants.none Lz lvz 0 :=
  regOf m 0 launch0 (body_obligation0 (En0 m)) (fun _ _ => rfl) (fun _ _ => rfl) (fun _ _ => rfl) (fun _ _ => rfl) (Wn0 m) (V2 m (outs m)) (A_eq0 (En0 m))
    (fun c => hF_of (dat0 (En0 m) c) (V1 m c) main_v21 (outs m 2 main_v21 c) (A_eq0 (En0 m) c) 4 rfl (heq_of_eq (outs_2 m c).symm) (by decide))
    (fun c => hrest_of (cfg := cfg0) (V1 m c) main_v21 (outs m 2 main_v21 c) 4 rfl)
def reg1 : Pipeline.RegionSeg (pcfgs (F := F)) adm (pdats m) () defs₀ Variants.none Lz lvz 1 :=
  regOf m 1 launch1 (body_obligation1 (En1 m)) (fun _ _ => rfl) (fun _ _ => rfl) (fun _ _ => rfl) (fun _ _ => rfl) (Wn1 m) (V4 m (outs m)) (A_eq1 (En1 m))
    (fun c => hF_of (dat1 (En1 m) c) (V3 m (outs m) c) main_v27 (outs m 4 main_v27 c) (A_eq1 (En1 m) c) 4 rfl (heq_of_eq (outs_4 m c).symm) (by decide))
    (fun c => hrest_of (cfg := cfg1) (V3 m (outs m) c) main_v27 (outs m 4 main_v27 c) 4 rfl)
def reg2 : Pipeline.RegionSeg (pcfgs (F := F)) adm (pdats m) () defs₀ Variants.none Lz lvz 2 :=
  regOf m 2 launch2 (body_obligation2 (En2 m)) (fun _ _ => rfl) (fun _ _ => rfl) (fun _ _ => rfl) (fun _ _ => rfl) (Wn2 m) (V6 m (outs m)) (A_eq2 (En2 m))
    (fun c => hF_of (dat2 (En2 m) c) (V5 m (outs m) c) main_v33 (outs m 6 main_v33 c) (A_eq2 (En2 m) c) 4 rfl (heq_of_eq (outs_6 m c).symm) (by decide))
    (fun c => hrest_of (cfg := cfg2) (V5 m (outs m) c) main_v33 (outs m 6 main_v33 c) 4 rfl)

theorem own_init : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
def frame := frame_cond m emb₁ () Variants.none Lz lvz (fun _ _ => rfl) ρ (outs m) (pdats m) 0 (fun _ => iprop(emp)) _ own_init Est
  (Pipeline.initEach Lz lvz fun c => by
    iintro ⟨⟨-, HO, -, Hp, -⟩, -⟩
    imodintro
    isplitl [Hp]; · iexists _; iexact Hp
    iexists ∅; iexact HO)
  (fun c => by iintro ⟨-, HO⟩; iexact HO)
  (reg0 m) (fun _ => .rfl) (fun _ => .rfl) (reg1 m) (fun _ => .rfl) (fun _ => .rfl) (reg2 m) (fun _ => .rfl) (fun _ => .rfl)

end Cert.KernelIdeal.Gen

end
-- ==== Proof.KI.Run.lean ====
import proofs.«421389_j87436944212793_2_alg».proof.Proof.KI.Asm

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = V13 m (outs m) c b) := by
  refine Pipeline.θ_run_regions_kit_dev (pcfgs (F := F)) adm (pdats m) () cellOf_inj emb₁ defs₀ Variants.none Lz lvz m ρ main
    (segs m (outs m) Variants.none Lz lvz Est () (pdats m) (reg0 m) (reg1 m) (reg2 m))
    (fun c Q => by
      rewrite [main_chain c, Seg.run_eq_chain,
        show (segs m (outs m) Variants.none Lz lvz Est () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := own_init)
    (T₀ := fun c => iprop(StableHlo.held (c : Thread nD τ) (Pipeline.ucRefs τ sig) (V0 m c) ∗ Rst c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      iintro ⟨Hh, HSI⟩
      unfold StableHlo.held
      imodintro
      iapply (pointsTo_read_all (Pipeline.ucRefs τ sig) (fun b => (((c : Thread nD τ)).1, b)) (V13 m (outs m) c) s')
      isplitl [Hh] <;> iassumption)
    (hQ := fun s h c => h c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_val : θ_run defs (onTc (τ := τ) (main (F := F))) ⟨m, fun _ => 0, ρ⟩ (fun r => ∀ c : Dev nD,
      r.2.mem ((c.tc : Thread nD τ).loc main_v50) = V13 m (outs m) c main_v50
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v50 (by decide)),
      (h c _ (mem_uc main_arg0 (by decide))).trans (V13_main_arg0 m (outs m) c),
      (h c _ (mem_uc main_arg1 (by decide))).trans (V13_main_arg1 m (outs m) c),
      (h c _ (mem_uc main_arg2 (by decide))).trans (V13_main_arg2 m (outs m) c),
      (h c _ (mem_uc main_arg3 (by decide))).trans (V13_main_arg3 m (outs m) c),
      (h c _ (mem_uc main_arg4 (by decide))).trans (V13_main_arg4 m (outs m) c),
      (h c _ (mem_uc main_arg5 (by decide))).trans (V13_main_arg5 m (outs m) c),
      (h c _ (mem_uc main_arg6 (by decide))).trans (V13_main_arg6 m (outs m) c),
      (h c _ (mem_uc main_arg7 (by decide))).trans (V13_main_arg7 m (outs m) c),
      (h c _ (mem_uc main_arg8 (by decide))).trans (V13_main_arg8 m (outs m) c),
      (h c _ (mem_uc main_arg9 (by decide))).trans (V13_main_arg9 m (outs m) c),
      (h c _ (mem_uc main_arg10 (by decide))).trans (V13_main_arg10 m (outs m) c),
      (h c _ (mem_uc main_arg11 (by decide))).trans (V13_main_arg11 m (outs m) c),
      (h c _ (mem_uc main_arg12 (by decide))).trans (V13_main_arg12 m (outs m) c)⟩)
    (run_all m ρ)

end Cert.KernelIdeal.Gen

end
-- ==== Proof.KI.HostEn.lean ====
import proofs.«421389_j87436944212793_2_alg».proof.Proof.KI.Asm
import proofs.«421389_j87436944212793_2_alg».proof.Proof.Gen.ReferenceIdeal.Read

noncomputable section

namespace Cert.KernelIdeal.Gen

open Idealize.ShloMosaic Idealize.ShloMosaic.TcCoe
open Idealize.SL Idealize.SL.Sem

variable (m : (ℓ : Loc nD τ sig) → Buf (Elt Ideal) ℓ) (c : Dev nD)

-- The first host stretch forms these two vectors by the reference's own operations on the same arguments.
theorem comp_eq : (V1 m c main_v3 : Vec Ideal S1024 .f32)
    = Cert.ReferenceIdeal.Read.val_main_v3 (F := Ideal) (m ((c.tc : Thread nD τ).loc main_arg0)) (m ((c.tc : Thread nD τ).loc main_arg3)) := by
  show StableHlo.after hostOps0 _ (Proc.devRef .tc main_v3) = _
  after_results
  rfl

theorem rad_eq : (V1 m c main_v12 : Vec Ideal S1024 .f32)
    = Cert.ReferenceIdeal.Read.val_main_v12 (F := Ideal) (m ((c.tc : Thread nD τ).loc main_arg1)) (m ((c.tc : Thread nD τ).loc main_arg4)) (m ((c.tc : Thread nD τ).loc main_arg11)) := by
  show StableHlo.after hostOps0 _ (Proc.devRef .tc main_v12) = _
  after_results
  rfl

end Cert.KernelIdeal.Gen

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def col (w : BitVec 32) : Fin 1024 := ⟨w.toNat % 1024, Nat.mod_lt _ (by decide)⟩
def row (w : BitVec 32) : Fin 4 := ⟨w.toNat % 4, Nat.mod_lt _ (by decide)⟩

theorem col_val_of_lt (w : BitVec 32) (h : w.toNat < 1024) : (col w).val = w.toNat := Nat.mod_eq_of_lt h
theorem row_val_of_lt (w : BitVec 32) (h : w.toNat < 4) : (row w).val = w.toNat := Nat.mod_eq_of_lt h

def feat (X : (⟨2, ![1024, 1024]⟩ : Shape).Idx → EReal) (n : Fin 1024) (w : BitVec 32) : EReal := X (ix2 n (col w))

-- The sum over the columns of a function of the column's index words times the coefficient in row `j`.
def table {k M : ℕ} (A : (Fin k → BitVec 32) → EReal) (I : (⟨2, ![k, M]⟩ : Shape).Idx → BitVec 32)
    (Mu : (⟨2, ![4, M]⟩ : Shape).Idx → EReal) (j : Fin 4) : EReal :=
  ∑ q : Fin M, A (fun r => I (ix2 r q)) * Mu (ix2 j q)

variable (X : (⟨2, ![1024, 1024]⟩ : Shape).Idx → EReal) (n : Fin 1024)

def p2 (w : Fin 2 → BitVec 32) : EReal := feat X n (w 0) * feat X n (w 1)
def p3 (w : Fin 3 → BitVec 32) : EReal := feat X n (w 0) * feat X n (w 1) * feat X n (w 2)
def p4 (w : Fin 4 → BitVec 32) : EReal := feat X n (w 0) * feat X n (w 1) * feat X n (w 2) * feat X n (w 3)

end Cert.Spec

end
-- ==== Proof.KI.HostTail.lean ====
import proofs.«421389_j87436944212793_2_alg».proof.Proof.KI.Asm
import proofs.«421389_j87436944212793_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.Lib.StableHlo.Predicate
import Idealize.ShloMosaic.PureOps.Ideal.Laws

noncomputable section

open scoped BigOperators

namespace Cert.KernelIdeal.Gen

open Idealize.ShloMosaic Idealize.ShloMosaic.TcCoe Idealize.ShloMosaic.ValueIdx
open Idealize.SL Idealize.SL.Sem

def sum0 (a : Vec Ideal S2x1024x4 .f32) : Vec Ideal S1024x4 .f32 :=
  Host.reduceAdd a (constant (F := Ideal) S_ .f32 0x00000000#32) reducesTo_S2x1024x4_S1024x4_d0 h_S_

abbrev colK {α : Type} (v : S1024.Idx → α) : S1024x1.Idx → α := broadcastInDim S1024x1 ![0] bcast_S1024_S1024x1_0 v

local notation "dK" => gather_S1024x4_S1024x1x1_S1024x1_n_1_0_0_1_2_11

def wrapK (v : Vec Ideal S1024x1 .i32) : Vec Ideal S1024x1x1 .i32 :=
  shapeCast S1024x1x1 (select (cmpi .slt v (broadcastInDim S1024x1 ![] bcast_S_S1024x1 (constantI S_ 32 0#32)))
    (addi v (broadcastInDim S1024x1 ![] bcast_S_S1024x1 (constantI S_ 32 4#32))) v) shapeCasts_S1024x1_S1024x1x1

def inK (v : Vec Ideal S1024x1x1 .i32) : Vec Ideal S1024x1 .i1 :=
  Host.reduce IntOp.andi (andi (cmpi .sge v (broadcastInDim S1024x1x1 ![] bcast_S_S1024x1x1 (constantI S_ 32 0#32)))
    (cmpi .sle v (broadcastInDim S1024x1x1 ![0, 1, 2] bcast_S1x1x1_S1024x1x1_0_1_2
      (broadcastInDim S1x1x1 ![2] bcast_S1_S1x1x1_2 (constantI S1 32 3#32)))))
    (constantI S_ 1 1#1) reducesTo_S1024x1x1_S1024x1_d2 h_S_

def takeK (tab : Vec Ideal S1024x4 .f32) (v : Vec Ideal S1024x1 .i32) : Vec Ideal S1024x1 .f32 :=
  select (inK (wrapK v)) (Host.gather dK tab (wrapK v))
    (broadcastInDim S1024x1 ![] bcast_S_S1024x1 (constant (F := Ideal) S_ .f32 0x7FC00000#32))

def eK (tab : Vec Ideal S1024x4 .f32) (sp : Vec Ideal S1024 .i32) : Vec Ideal S1024 .f32 :=
  shapeCast S1024 (takeK tab (colK sp)) shapeCasts_S1024x1_S1024

def tailK (e0 e1 e2 e3 e4 : Vec Ideal S1024 .f32) : Vec Ideal S_ .f32 :=
  Host.reduceAdd (concatenate S1024x5 1 [⟨S1024x1, colK e0⟩, ⟨S1024x1, colK e1⟩, ⟨S1024x1, colK e2⟩, ⟨S1024x1, colK e3⟩, ⟨S1024x1, colK e4⟩]
    concatenates_S1024x1_S1024x1_S1024x1_S1024x1_S1024x1_S1024x5_d1) (constant (F := Ideal) S_ .f32 0x00000000#32) reducesTo_S1024x5_S_d0_1 h_S_

theorem sum0_apply (a : Vec Ideal S2x1024x4 .f32) (n : Fin 1024) (j : Fin 4) :
    sum0 a (ix2 n j) = a (ix3 0 n j) + a (ix3 1 n j) := by
  have hR : S2x1024x4.Reduces [0] S1024x4 := by decide
  have e (k : Fin 2) : hR.lift (ix2 n j) k = ix3 k n j := by
    funext d; refine Fin.ext ?_
    match d with | ⟨0, _⟩ => rfl | ⟨1, _⟩ => rfl | ⟨2, _⟩ => rfl
  unfold sum0
  rw [hostReduceAdd_apply, Ideal.hostReduceAdd_single reducesTo_S2x1024x4_S1024x4_d0 hR, constant_apply,
    Ideal.ofBits_zero_f32, zero_add]
  refine (Fin.sum_univ_two _).trans ?_
  rw [e, e]

-- Below 4 a word is not less than 0 as a signed number, so the select keeps it.
theorem wrapK_apply (v35 : Vec Ideal S1024x1 .i32) (h35 : ∀ i, (v35 i).toNat < 4) (a : Fin 1024) (b c : Fin 1) :
    wrapK v35 (ix3 a b c) = v35 (ix2 a 0) := by
  obtain rfl : b = 0 := Subsingleton.elim _ _
  obtain rfl : c = 0 := Subsingleton.elim _ _
  unfold wrapK
  rw [shapeCast_apply _ _ (ix3 a 0 0) (ix2 a 0) (by
    rw [Shape.rowMajor_val_two, Shape.rowMajor_val_three]
    show a.val * 1 + 0 = (a.val * 1 + 0) * 1 + 0
    omega)]
  show Scalar.select (IntOp.cmpi .slt (v35 (ix2 a 0)) (broadcastInDim S1024x1 ![] bcast_S_S1024x1 (constantI S_ 32 0#32) (ix2 a 0)))
    (IntOp.addi (v35 (ix2 a 0)) (broadcastInDim S1024x1 ![] bcast_S_S1024x1 (constantI S_ 32 4#32) (ix2 a 0))) (v35 (ix2 a 0)) = _
  rw [broadcastInDim_scalar_apply, constantI_apply]
  have hw := h35 (ix2 a 0)
  have hn : ¬ IntOp.cmpi .slt (v35 (ix2 a 0)) 0#32 = 1#1 := fun h =>
    absurd ((StableHlo.Predicate.slt_iff_toNat (by omega) (by decide)).mp h) (by simp)
  rw [eq_zero_of_ne_one hn, select_zero]

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

theorem inK_apply (v5 : Vec Ideal S1024x1x1 .i32) (h5 : ∀ i, (v5 i).toNat < 4) (j : S1024x1.Idx) : inK v5 j = 1#1 := by
  unfold inK
  rw [Host.reduce_eq_foldl]
  refine foldl_andi_one _ _ (fun i _ => ?_)
  show IntOp.andi (IntOp.cmpi .sge (v5 i) 0#32) (IntOp.cmpi .sle (v5 i) 3#32) = 1#1
  have hw := h5 i
  rw [(StableHlo.Predicate.sge_iff_toNat (by omega) (by decide)).mpr (Nat.zero_le _),
    (StableHlo.Predicate.sle_iff_toNat (by omega) (by decide)).mpr (by show (v5 i).toNat ≤ 3; omega)]
  rfl

-- The row is the result's own row; the column is min(start, 3), which is the start itself below 4.
theorem gatherK_apply (tab : Vec Ideal S1024x4 .f32) (v5 : Vec Ideal S1024x1x1 .i32) (n : Fin 1024) (b : Fin 1)
    (h5 : (v5 (ix3 n 0 0)).toNat < 4) :
    Host.gather dK tab v5 (ix2 n b) = tab (ix2 n (Cert.Spec.row (v5 (ix3 n 0 0)))) := by
  obtain rfl : b = 0 := Subsingleton.elim _ _
  have hsi : GatherDims.siIdx dK (ix2 n 0) ⟨0, by decide⟩ = ix3 n 0 0 := by
    funext b; refine Fin.ext ?_
    match b with | ⟨0, _⟩ => rfl | ⟨1, _⟩ => rfl | ⟨2, _⟩ => rfl
  unfold Host.gather
  congr 1
  funext a
  refine Fin.ext ?_
  match a with
  | ⟨0, _⟩ => exact (Nat.zero_add n.val : 0 + n.val + 0 = n.val)
  | ⟨1, _⟩ =>
    show min (v5 (GatherDims.siIdx dK (ix2 n 0) ⟨0, by decide⟩)).toInt.toNat (4 - 1) + 0 + 0 = _
    rw [hsi, StableHlo.Predicate.toInt_eq_toNat_of_lt (by omega), Int.toNat_natCast, Cert.Spec.row_val_of_lt _ h5]
    omega

theorem spcol_apply (sp : Vec Ideal S1024 .i32) (a : Fin 1024) (b : Fin 1) : colK sp (ix2 a b) = sp (ix1 a) :=
  broadcastInDim_apply _ _ sp _ (ix1 a) (fun a' => by obtain rfl : a' = 0 := Subsingleton.elim _ _; rfl)

theorem eK_apply (tab : Vec Ideal S1024x4 .f32) (sp : Vec Ideal S1024 .i32) (hsp : ∀ i, (sp i).toNat < 4) (n : Fin 1024) :
    eK tab sp (ix1 n) = tab (ix2 n (Cert.Spec.row (sp (ix1 n)))) := by
  have h35 : ∀ i, (colK sp i).toNat < 4 := fun i => by
    obtain ⟨a, b, rfl⟩ : ∃ (a : Fin 1024) (b : Fin 1), i = ix2 a b := ⟨i 0, i 1, eq_ix2 i⟩
    rw [spcol_apply]; exact hsp _
  have h5 : ∀ i, (wrapK (colK sp) i).toNat < 4 := fun i => by
    obtain ⟨a, b, c, rfl⟩ : ∃ (a : Fin 1024) (b c : Fin 1), i = ix3 a b c := ⟨i 0, i 1, i 2, eq_ix3 i⟩
    rw [wrapK_apply _ h35]; exact h35 _
  unfold eK
  rw [shapeCast_apply _ _ (ix1 n) (ix2 n 0) (by
    rw [Shape.rowMajor_val_two, Shape.rowMajor_val_one]
    show n.val * 1 + 0 = n.val
    omega)]
  unfold takeK
  rw [select_apply, inK_apply _ h5, select_one, gatherK_apply tab _ n 0 (h5 _), wrapK_apply _ h35, spcol_apply]

section Stretches

open Idealize.ShloMosaic.StableHlo

theorem nary5_result' {Val : EltTy → Type} {x a b c e y : Ref sig .tc}
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

variable (W : Valuation τ sig (Elt Ideal))

theorem h1_v22 : after hostOps1 W main_v22 = sum0 (W main_v21) := by
  after_results_simp; rfl
theorem h2_v28 : after hostOps2 W main_v28 = sum0 (W main_v27) := by
  after_results_simp; rfl
theorem h3_v34 : after hostOps3 W main_v34 = sum0 (W main_v33) := by
  after_results_simp; rfl
theorem h3_v35 : after hostOps3 W main_v35 = colK (W main_arg12) := by
  after_results_simp
theorem take0_result : after hostOps3_1 W main_v36
    = takeK (W main_v22) (W main_v35) := by
  after_results_simp
  simp only [TRef.ofBuf, TRef.toBuf, cast_eq]
  rfl
theorem h32_v37 : after hostOps3_2 W main_v37
    = shapeCast S1024 (W main_v36) shapeCasts_S1024x1_S1024 := by
  after_results_simp; rfl
theorem h32_v38 : after hostOps3_2 W main_v38 = colK (W main_arg12) := by
  after_results_simp
theorem take1_result : after hostOps3_3 W main_v39
    = takeK (W main_v28) (W main_v38) := by
  after_results_simp
  simp only [TRef.ofBuf, TRef.toBuf, cast_eq]
  rfl
theorem h34_v40 : after hostOps3_4 W main_v40
    = shapeCast S1024 (W main_v39) shapeCasts_S1024x1_S1024 := by
  after_results_simp; rfl
theorem h34_v41 : after hostOps3_4 W main_v41 = colK (W main_arg12) := by
  after_results_simp
theorem take2_result : after hostOps3_5 W main_v42
    = takeK (W main_v34) (W main_v41) := by
  after_results_simp
  simp only [TRef.ofBuf, TRef.toBuf, cast_eq]
  rfl
theorem h36_v50 : after hostOps3_6 W main_v50
    = tailK (W main_v3) (W main_v12) (W main_v37)
        (W main_v40) (shapeCast S1024 (W main_v42) shapeCasts_S1024x1_S1024) := by
  simp (disch := decide) only [after_cons, after_nil, nullary_result', unary_result', binary_result', reshape_result',
    nary5_result', nullary_result_ne', unary_result_ne', binary_result_ne', reshape_result_ne', nary_result_ne']
  rfl

end Stretches

variable (m : (ℓ : Loc nD τ sig) → Buf (Elt Ideal) ℓ) (c : Dev nD)

theorem arg12_6 : V6 m (outs m) c main_arg12 = (m ((c : Thread nD τ).loc main_arg12)) := by
  rw [V6_of, V5_of, V4_of, V3_of, V2_of, V1_of] <;> first | rfl | decide
theorem arg12_8 : V8 m (outs m) c main_arg12 = (m ((c : Thread nD τ).loc main_arg12)) := by
  rw [V8_of, V7_of, arg12_6] <;> decide
theorem arg12_10 : V10 m (outs m) c main_arg12 = (m ((c : Thread nD τ).loc main_arg12)) := by
  rw [V10_of, V9_of, arg12_8] <;> decide

theorem v22_7 : V7 m (outs m) c main_v22 = sum0 (arr0 m c) := by
  rw [V7_of, V6_of, V5_of, V4_of] <;> first
    | decide
    | exact (h1_v22 _).trans (congrArg sum0 ((Function.update_self _ _ _).trans (outs_2 m c)))
theorem v28_9 : V9 m (outs m) c main_v28 = sum0 (arr1 m c) := by
  rw [V9_of, V8_of, V7_of, V6_of] <;> first
    | decide
    | exact (h2_v28 _).trans (congrArg sum0 ((Function.update_self _ _ _).trans (outs_4 m c)))
theorem v34_11 : V11 m (outs m) c main_v34 = sum0 (arr2 m c) := by
  rw [V11_of, V10_of, V9_of, V8_of] <;> first
    | decide
    | exact (h3_v34 _).trans (congrArg sum0 ((Function.update_self _ _ _).trans (outs_6 m c)))

theorem v37_12 : V12 m (outs m) c main_v37 = eK (sum0 (arr0 m c)) (m ((c : Thread nD τ).loc main_arg12)) := by
  rw [V12_of, V11_of, V10_of] <;> first
    | decide
    | exact (h32_v37 _).trans (congrArg (fun x => shapeCast S1024 x shapeCasts_S1024x1_S1024) ((take0_result _).trans
        (congrArg₂ takeK (v22_7 m c) ((h3_v35 _).trans (congrArg colK (arg12_6 m c))))))
theorem v40_12 : V12 m (outs m) c main_v40 = eK (sum0 (arr1 m c)) (m ((c : Thread nD τ).loc main_arg12)) := by
  rw [V12_of] <;> first
    | decide
    | exact (h34_v40 _).trans (congrArg (fun x => shapeCast S1024 x shapeCasts_S1024x1_S1024) ((take1_result _).trans
        (congrArg₂ takeK (v28_9 m c) ((h32_v38 _).trans (congrArg colK (arg12_8 m c))))))
theorem v43_12 : shapeCast S1024 (V12 m (outs m) c main_v42) shapeCasts_S1024x1_S1024
    = eK (sum0 (arr2 m c)) (m ((c : Thread nD τ).loc main_arg12)) :=
  congrArg (fun x => shapeCast S1024 x shapeCasts_S1024x1_S1024) ((take2_result _).trans
    (congrArg₂ takeK (v34_11 m c) ((h34_v41 _).trans (congrArg colK (arg12_10 m c)))))
theorem v3_12 : V12 m (outs m) c main_v3 = V1 m c main_v3 := by
  rw [V12_of, V11_of, V10_of, V9_of, V8_of, V7_of, V6_of, V5_of, V4_of, V3_of, V2_of] <;> decide
theorem v12_12 : V12 m (outs m) c main_v12 = V1 m c main_v12 := by
  rw [V12_of, V11_of, V10_of, V9_of, V8_of, V7_of, V6_of, V5_of, V4_of, V3_of, V2_of] <;> decide

theorem main_v50_eq :
    (V13 m (outs m) c main_v50 : Vec Ideal S_ .f32)
      = tailK (V1 m c main_v3) (V1 m c main_v12)
          (eK (sum0 (arr0 m c)) (m ((c : Thread nD τ).loc main_arg12)))
          (eK (sum0 (arr1 m c)) (m ((c : Thread nD τ).loc main_arg12)))
          (eK (sum0 (arr2 m c)) (m ((c : Thread nD τ).loc main_arg12))) := by
  refine (h36_v50 _).trans ?_
  rw [v3_12 m c, v12_12 m c, v37_12 m c, v40_12 m c, v43_12 m c]

end Cert.KernelIdeal.Gen

end
-- ==== Proof.KI.HostPre.lean ====
import proofs.«421389_j87436944212793_2_alg».proof.Proof.KI.Asm
import Idealize.ShloMosaic.Lib.ValueIdx
import Idealize.ShloMosaic.Lib.Pipeline.Value
import Idealize.ShloMosaic.PureOps.Ideal.Laws

noncomputable section

namespace Cert.KernelIdeal.Gen

open Idealize.ShloMosaic Idealize.ShloMosaic.TcCoe Idealize.ShloMosaic.ValueIdx
open Idealize.SL.Sem

-- A table of M₁ columns followed by M₂ constant columns reads the table below M₁ and the constant from M₁ on.
theorem pad_apply {α : Type} {n M1 M2 M : Nat} {E : (⟨2, ![n, M]⟩ : Shape).Idx → α} {x : (⟨2, ![n, M1]⟩ : Shape).Idx → α} {z : α}
    {h : Shape.Concatenates [(⟨2, ![n, M1]⟩ : Shape), ⟨2, ![n, M2]⟩] ⟨2, ![n, M]⟩ 1}
    (hE : E = concatenate (⟨2, ![n, M]⟩ : Shape) 1 [⟨⟨2, ![n, M1]⟩, x⟩, ⟨⟨2, ![n, M2]⟩, fun _ => z⟩] h) (hM : M = M1 + M2)
    (r : Fin n) (q : Fin M) : E (ix2 r q) = if hq : q.val < M1 then x (ix2 r ⟨q.val, hq⟩) else z := by
  subst hE
  split
  · rename_i hq
    refine concatenate_pair_apply_left 1 x _ h (ix2 r q) rfl (ix2 r ⟨q.val, hq⟩) ?_
    intro b; fin_cases b <;> rfl
  · rename_i hq
    have hq2 : q.val - M1 < M2 := by have := q.isLt; omega
    refine (concatenate_pair_apply_right 1 x (fun _ => z) h (ix2 r q) rfl rfl (ix2 r ⟨q.val - M1, hq2⟩) ?_ ?_).trans rfl
    · intro b hb; fin_cases b
      · rfl
      · exact absurd rfl hb
    · show q.val - M1 + M1 = q.val
      omega

-- A padded index table's words name columns when the table's do: the padding is the word 0.
theorem pad_lt {k N M : Nat} (E : (⟨2, ![k, N]⟩ : Shape).Idx → BitVec 32) (I : (⟨2, ![k, M]⟩ : Shape).Idx → BitVec 32)
    (hE : ∀ r q, E (ix2 r q) = if hq : q.val < M then I (ix2 r ⟨q.val, hq⟩) else 0#32) (h : ∀ i, (I i).toNat < 1024)
    (j : (⟨2, ![k, N]⟩ : Shape).Idx) : (E j).toNat < 1024 := by
  obtain ⟨a, b, rfl⟩ : ∃ a b, j = ix2 a b := ⟨j 0, j 1, eq_ix2 j⟩
  rw [hE a b]
  split
  · exact h _
  · decide

variable (m : (ℓ : Loc nD τ sig) → Buf (Elt Ideal) ℓ) (c : Dev nD)

abbrev xA : S1024x1024.Idx → EReal := m ((c : Thread nD τ).loc main_arg2)
abbrev i2A : S2x20000.Idx → BitVec 32 := m ((c : Thread nD τ).loc main_arg5)
abbrev i3A : S3x40000.Idx → BitVec 32 := m ((c : Thread nD τ).loc main_arg7)
abbrev i4A : S4x60000.Idx → BitVec 32 := m ((c : Thread nD τ).loc main_arg9)
abbrev q2A : S4x20000.Idx → EReal := m ((c : Thread nD τ).loc main_arg6)
abbrev q3A : S4x40000.Idx → EReal := m ((c : Thread nD τ).loc main_arg8)
abbrev q4A : S4x60000.Idx → EReal := m ((c : Thread nD τ).loc main_arg10)

-- A change of float format is the identity here, so the high part is the table itself.
theorem En0_v13 : (En0 m c main_v13 : S1024x1024.Idx → EReal) = xA m c := by
  show StableHlo.after hostOps0 _ (Proc.devRef .tc main_v13) = _
  after_results
  rfl
theorem En1_v13 : (En1 m c main_v13 : S1024x1024.Idx → EReal) = xA m c := by
  refine Eq.trans ?_ (En0_v13 m c)
  show V3 m (outsA m) c main_v13 = V1 m c main_v13
  rw [V3_of, V2_of] <;> decide
theorem En2_v13 : (En2 m c main_v13 : S1024x1024.Idx → EReal) = xA m c := by
  refine Eq.trans ?_ (En0_v13 m c)
  show V5 m (outsB m) c main_v13 = V1 m c main_v13
  rw [V5_of, V4_of, V3_of, V2_of] <;> decide

section Low
variable (hx : ∀ i, ∃ r : ℝ, xA m c i = (r : EReal)) (i : S1024x1024.Idx)
include hx

-- The low part is x − x, zero where x is a real number.
theorem En0_v16 : (En0 m c main_v16 : S1024x1024.Idx → EReal) i = (0 : EReal) := by
  refine Eq.trans (congrFun (?_ : _ = fun i => xA m c i - xA m c i) i) ?_
  · show StableHlo.after hostOps0 _ (Proc.devRef .tc main_v16) = _
    after_results
    rfl
  · obtain ⟨r, hr⟩ := hx i
    show xA m c i - xA m c i = 0
    rw [hr, ← EReal.coe_sub, sub_self, EReal.coe_zero]
theorem En1_v16 : (En1 m c main_v16 : S1024x1024.Idx → EReal) i = (0 : EReal) := by
  refine Eq.trans (congrFun ?_ i) (En0_v16 m c hx i)
  show V3 m (outsA m) c main_v16 = V1 m c main_v16
  rw [V3_of, V2_of] <;> decide
theorem En2_v16 : (En2 m c main_v16 : S1024x1024.Idx → EReal) i = (0 : EReal) := by
  refine Eq.trans (congrFun ?_ i) (En0_v16 m c hx i)
  show V5 m (outsB m) c main_v16 = V1 m c main_v16
  rw [V5_of, V4_of, V3_of, V2_of] <;> decide

end Low

theorem En0_v18 (r : Fin 2) (q : Fin 20480) :
    (En0 m c main_v18 : S2x20480.Idx → BitVec 32) (ix2 r q) = if hq : q.val < 20000 then i2A m c (ix2 r ⟨q.val, hq⟩) else 0#32 :=
  pad_apply (by
    show StableHlo.after hostOps0 _ (Proc.devRef .tc main_v18) = _
    after_results
    rfl) (by rfl) r q
theorem En1_v24 (r : Fin 3) (q : Fin 40960) :
    (En1 m c main_v24 : S3x40960.Idx → BitVec 32) (ix2 r q) = if hq : q.val < 40000 then i3A m c (ix2 r ⟨q.val, hq⟩) else 0#32 :=
  pad_apply (by
    show StableHlo.after hostOps1 _ (Proc.devRef .tc main_v24) = _
    after_results
    rw [V2_of, V1_of] <;> first | rfl | decide) (by rfl) r q
theorem En2_v30 (r : Fin 4) (q : Fin 61440) :
    (En2 m c main_v30 : S4x61440.Idx → BitVec 32) (ix2 r q) = if hq : q.val < 60000 then i4A m c (ix2 r ⟨q.val, hq⟩) else 0#32 :=
  pad_apply (by
    show StableHlo.after hostOps2 _ (Proc.devRef .tc main_v30) = _
    after_results
    rw [V4_of, V3_of, V2_of, V1_of] <;> first | rfl | decide) (by rfl) r q

theorem En0_v20 (j : Fin 4) (q : Fin 20480) :
    (En0 m c main_v20 : S4x20480.Idx → EReal) (ix2 j q) = if hq : q.val < 20000 then q2A m c (ix2 j ⟨q.val, hq⟩) else (0 : EReal) :=
  pad_apply (by
    show StableHlo.after hostOps0 _ (Proc.devRef .tc main_v20) = _
    after_results
    rw [← Ideal.ofBits_zero_f32]
    rfl) (by rfl) j q
theorem En1_v26 (j : Fin 4) (q : Fin 40960) :
    (En1 m c main_v26 : S4x40960.Idx → EReal) (ix2 j q) = if hq : q.val < 40000 then q3A m c (ix2 j ⟨q.val, hq⟩) else (0 : EReal) :=
  pad_apply (by
    show StableHlo.after hostOps1 _ (Proc.devRef .tc main_v26) = _
    after_results
    rw [V2_of, V1_of, ← Ideal.ofBits_zero_f32] <;> first | rfl | decide) (by rfl) j q
theorem En2_v32 (j : Fin 4) (q : Fin 61440) :
    (En2 m c main_v32 : S4x61440.Idx → EReal) (ix2 j q) = if hq : q.val < 60000 then q4A m c (ix2 j ⟨q.val, hq⟩) else (0 : EReal) :=
  pad_apply (by
    show StableHlo.after hostOps2 _ (Proc.devRef .tc main_v32) = _
    after_results
    rw [V4_of, V3_of, V2_of, V1_of, ← Ideal.ofBits_zero_f32] <;> first | rfl | decide) (by rfl) j q

end Cert.KernelIdeal.Gen

end
-- ==== Proof.KI.Val0Pieces.lean ====
import proofs.«421389_j87436944212793_2_alg».proof.Proof.KI.Reg0Frame
import Idealize.ShloMosaic.Lib.Pipeline.Value
import Idealize.ShloMosaic.Lib.QrPanel.Panel

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
open Idealize.ShloMosaic.QrPanel.Panel (zeros2 zeros3)

/-- One tile's update of the output block `acc`: the four masked row sums of the gathered products, added to it. -/
def tile0 (x0 : Vec F S1024x1024 .bf16) (x1 : Vec F S1024x1024 .bf16) (x2 : Vec F S2x1024 .i32) (x3 : Vec F S4x1024 .f32) (acc : Vec F S1x1024x4 .f32) : Vec F S1x1024x4 .f32 :=
  k0_pay1
    (k0_pay3 (View.ld x2 (Rect.unit (s := S2x1024) ![0, 0] ![1, 1024] inb_S2x1024_S1x1024_0_0)) x0 x1
      (View.ld x2 (Rect.unit (s := S2x1024) ![1, 0] ![1, 1024] inb_S2x1024_S1x1024_1_0)) x0 x1)
    (k0_pay4 x3) acc

variable (V : (c : Dev nD) → (b : Ref sig .tc) → Buf (Elt F) ((c : Thread nD τ).loc b))
variable {arg2 arg3 : Memref sig .tc .vmem S1024x1024 .bf16} {arg4 : Memref sig .tc .vmem S2x1024 .i32} {arg5 : Memref sig .tc .vmem S4x1024 .f32} {arg6 : Memref sig .tc .vmem S1x1024x4 .f32}
variable (c : Dev nD) (i : grid0.Coords) (harg2 : arg2.IsWhole) (harg3 : arg3.IsWhole) (harg4 : arg4.IsWhole) (harg5 : arg5.IsWhole) (harg6 : arg6.IsWhole)
  (x0 x1 : Vec F S1024x1024 .bf16) (x2 : Vec F S2x1024 .i32) (x3 : Vec F S4x1024 .f32)

/-- In either case the body's last store covers the whole block, so it alone is what the buffer holds: the tile's update of the zero block just stored, or of what was there. -/
theorem kernelRun0_eq :
    (∀ hc0, (kernelRun0_A c i harg2 harg3 harg4 harg5 harg6 x0 x1 x2 x3 hc0).1 = tile0 x0 x1 x2 x3 k0_pay2)
      ∧ ∀ hc0 xo4, (kernelRun0_B c i harg2 harg3 harg4 harg5 harg6 x0 x1 x2 x3 hc0 xo4).1 = tile0 x0 x1 x2 x3 xo4 := by
  refine ⟨fun _ => ?_, fun _ _ => ?_⟩
  all_goals
    simp only [kernelRun0_A, kernelRun0_B, pieces0_A, pieces0_B, tile0]
    rw [View.read_writes_eq_canon _ _ _ (View.cover_of_tiledL _ S1x1024x4.size (by sl_kernel_rfl))]
    sl_unfold_words
    rw [View.canon_cons_unit_zero (S := S1x1024x4) zeros3]
    simp only [View.readAt_eq_ld, harg2.read_unread, harg3.read_unread, harg4.read_unread, harg5.read_unread, harg6.read_unread, View.readCov_unit_zero (S := S1x1024x4) _ zeros3, View.ld_unit_zero (S := S1x1024x4) zeros3, View.ld_unit_zero (S := S1024x1024) zeros2, View.ld_unit_zero (S := S4x1024) zeros2]

variable (t : Fin cfg0.N)

theorem outsAt0_reset_eq (h0 : t.val % 10 = 0) :
    outsAt0 V c t.val t.isLt = tile0 (iblk0 V c 0 t) (iblk0 V c 1 t) (iblk0 V c 2 t) (iblk0 V c 3 t) k0_pay2 :=
  (outsAt0_A V c t h0).trans ((kernelRun0_eq c ..).1 _)

theorem outsAt0_acc_eq (h0 : ¬t.val % 10 = 0) :
    outsAt0 V c t.val t.isLt = tile0 (iblk0 V c 0 t) (iblk0 V c 1 t) (iblk0 V c 2 t) (iblk0 V c 3 t)
      (outsAt0 V c (t.val - 1) (Nat.lt_of_le_of_lt (Nat.sub_le _ _) t.isLt)) :=
  (outsAt0_B V c t h0).trans ((kernelRun0_eq c ..).2 _ _)

end Cert.KernelIdeal.Gen

end
-- ==== Proof.KI.OneHot.lean ====
import proofs.«421389_j87436944212793_2_alg».proof.KernelIdeal
import proofs.«421389_j87436944212793_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.OneHot

open Cert.KernelIdeal
open Idealize.ShloMosaic Idealize.ShloMosaic.ValueIdx

variable [Facts₀]

def onehot (r : Vec Ideal S1x1024 .i32) : FVec Ideal S1024x1024 .bf16 :=
  truncf .bf16 (sitofp .f32 (extui 32 (cmpi .eq (iota .tc S1024x1024 32 [0] Facts₀.iota_S1024x1024_d0_w32)
    (broadcastTo S1024x1024 (shapeCast S1x1024 (shapeCast S1024 r Facts₀.shapeCasts_S1x1024_S1024) Facts₀.shapeCasts_S1024_S1x1024)
      Facts₀.broadcasts_S1x1024_S1024x1024)) Facts₀.natLt_1_32)) Facts₀.bitsLt_bf16_f32

theorem ofNat_eq_iff (d : Fin 1024) (w : BitVec 32) : BitVec.ofNat 32 d.val = w ↔ w.toNat = d.val := by
  have e : (BitVec.ofNat 32 d.val).toNat = d.val := by
    rw [BitVec.toNat_ofNat]; exact Nat.mod_eq_of_lt (by have := d.isLt; omega)
  exact ⟨fun h => h ▸ e, fun h => BitVec.eq_of_toNat_eq (e.trans h.symm)⟩

/-- A row number is the only word whose value it is, so the comparison is one exactly at the row the index word names. -/
theorem onehot_apply (r : Vec Ideal S1x1024 .i32) (d col : Fin 1024) :
    onehot r (ix2 d col) = if (r (ix2 0 col)).toNat = d.val then (1 : EReal) else 0 := by
  unfold onehot
  rw [truncf_apply, sitofp_apply, extui_apply]
  unfold cmpi
  rw [iota_single_apply, broadcastTo_1b_ab_apply, shapeCast_shapeCast]
  show ((((IntOp.cmpi .eq (BitVec.ofNat 32 d.val) (r (ix2 0 col))).setWidth 32).toInt : ℝ) : EReal) = _
  unfold IntOp.cmpi
  by_cases h : (r (ix2 0 col)).toNat = d.val
  · rw [if_pos h]
    have e : (BitVec.ofNat 32 d.val == r (ix2 0 col)) = true := by
      rw [beq_iff_eq]; exact (ofNat_eq_iff d _).2 h
    simp only [e]
    rw [show ((BitVec.ofBool true).setWidth 32).toInt = 1 by decide]
    norm_num
  · rw [if_neg h]
    have e : (BitVec.ofNat 32 d.val == r (ix2 0 col)) = false := by
      rw [beq_eq_false_iff_ne]; exact fun h' => h ((ofNat_eq_iff d _).1 h')
    simp only [e]
    rw [show ((BitVec.ofBool false).setWidth 32).toInt = 0 by decide]
    norm_num

theorem lhs_row (j : S1024x1024.Idx) (k : dot_S1024x1024_S1024x1024_S1024x1024_1_0_0_1_n_n.contr.Idx) :
    (dot_S1024x1024_S1024x1024_S1024x1024_1_0_0_1_n_n.lhsIdx j k 0).val = (j 0).val := by
  simp [DotDims.lhsIdx, dot_S1024x1024_S1024x1024_S1024x1024_1_0_0_1_n_n]; rfl
theorem rhs_col (j : S1024x1024.Idx) (k : dot_S1024x1024_S1024x1024_S1024x1024_1_0_0_1_n_n.contr.Idx) :
    (dot_S1024x1024_S1024x1024_S1024x1024_1_0_0_1_n_n.rhsIdx j k 1).val = (j 1).val := by
  simp [DotDims.rhsIdx, dot_S1024x1024_S1024x1024_S1024x1024_1_0_0_1_n_n]; rfl

theorem product_apply (a b : FVec Ideal S1024x1024 .bf16) (hcc : S1024x1024.ShapeCasts S1024x1024) (n col : Fin 1024) :
    matmul dot_S1024x1024_S1024x1024_S1024x1024_1_0_0_1_n_n none (shapeCast S1024x1024 a hcc) b
        (constant (F := Ideal) S1024x1024 .f32 0x00000000#32) (ix2 n col)
      = ∑ d : Fin 1024, a (ix2 n d) * b (ix2 d col) := by
  rw [shapeCast_self]
  show FloatOps.matmul _ none a b (constant (F := Ideal) S1024x1024 .f32 0x00000000#32) (ix2 n col) = _
  rw [Ideal.matmul_constant_zero_apply,
    ← Equiv.sum_comp (contrEquiv1 dot_S1024x1024_S1024x1024_S1024x1024_1_0_0_1_n_n 1024 rfl rfl).symm]
  refine Finset.sum_congr rfl fun d _ => ?_
  have hd := contrEquiv1_symm_val dot_S1024x1024_S1024x1024_S1024x1024_1_0_0_1_n_n 1024 rfl rfl d
  have el : dot_S1024x1024_S1024x1024_S1024x1024_1_0_0_1_n_n.lhsIdx (ix2 n col)
      ((contrEquiv1 _ 1024 rfl rfl).symm d) = ix2 n d := by
    funext ax; apply Fin.ext
    match ax with
    | ⟨0, _⟩ => exact lhs_row _ _
    | ⟨1, _⟩ => exact (DotDims.lhsIdx_val_of_single _ rfl _ _).trans hd
  have er : dot_S1024x1024_S1024x1024_S1024x1024_1_0_0_1_n_n.rhsIdx (ix2 n col)
      ((contrEquiv1 _ 1024 rfl rfl).symm d) = ix2 d col := by
    funext ax; apply Fin.ext
    match ax with
    | ⟨0, _⟩ => exact (DotDims.rhsIdx_val_of_single _ rfl _ _).trans hd
    | ⟨1, _⟩ => exact rhs_col _ _
  rw [el, er]

/-- The one-hot product picks the high part's column the index word names; the vanishing low part adds nothing. -/
theorem factor_apply (xh xl : FVec Ideal S1024x1024 .bf16) (r : Vec Ideal S1x1024 .i32) (hlo : ∀ i, xl i = 0)
    (hcc : S1024x1024.ShapeCasts S1024x1024) (n col : Fin 1024) (hr : (r (ix2 0 col)).toNat < 1024) :
    addf (matmul dot_S1024x1024_S1024x1024_S1024x1024_1_0_0_1_n_n none (shapeCast S1024x1024 xh hcc) (onehot r)
            (constant (F := Ideal) S1024x1024 .f32 0x00000000#32))
         (matmul dot_S1024x1024_S1024x1024_S1024x1024_1_0_0_1_n_n none (shapeCast S1024x1024 xl hcc) (onehot r)
            (constant (F := Ideal) S1024x1024 .f32 0x00000000#32)) (ix2 n col)
      = Cert.Spec.feat xh n (r (ix2 0 col)) := by
  have z : ∑ d : Fin 1024, xl (ix2 n d) * onehot r (ix2 d col) = 0 := Finset.sum_eq_zero fun d _ => by rw [hlo, zero_mul]
  rw [addf_apply, product_apply, product_apply, z, add_zero, Finset.sum_eq_single (Cert.Spec.col (r (ix2 0 col)))]
  · rw [onehot_apply, if_pos (Cert.Spec.col_val_of_lt _ hr).symm, mul_one]; rfl
  · intro d _ hd
    rw [onehot_apply, if_neg fun h => hd (Fin.ext (h.symm.trans (Cert.Spec.col_val_of_lt _ hr).symm)), mul_zero]
  · intro h; exact absurd (Finset.mem_univ _) h

theorem rowsum_apply (q : FVec Ideal S1024x1024 .f32) (mu : FVec Ideal S4x1024 .f32) (o : Nat)
    (hsl : S4x1024.Slices ![o, 0] S1x1024) (hb : S1x1024.Broadcasts S1024x1024) (hred : S1024x1024.Reduces [1] S1024)
    (hφ : FKind.Formats .f32) (hacc : (0x00000000#32 : BitVec 32) = 0x00000000#32) (hc : S1024.ShapeCasts S1024x1)
    (n : Fin 1024) (u : Fin 1) (j : Fin 4) (hj : j.val = o) :
    shapeCast S1024x1 (multiReduction (F := Ideal) .add [1] S1024
        (mulf q (broadcastTo S1024x1024 (extractStridedSlice S1x1024 ![o, 0] mu hsl) hb)) 0x00000000#32 hred hφ hacc) hc (ix2 n u)
      = ∑ col : Fin 1024, q (ix2 n col) * mu (ix2 j col) := by
  refine (shapeCast_apply _ hc _ (ix1 n) (by
    rw [Shape.rowMajor_val_two, Shape.rowMajor_val_one]
    show n.val = n.val * 1 + u.val
    omega)).trans ?_
  refine (Ideal.multiReduction_add_single _ 0x00000000#32 hred hφ hacc (ix1 n)).trans ?_
  refine Finset.sum_congr rfl fun (col : Fin 1024) _ => ?_
  have e : hred.lift (ix1 n) col = ix2 n col := by
    funext a; apply Fin.ext
    match a with
    | ⟨0, _⟩ => rfl
    | ⟨1, _⟩ => rfl
  rw [e, mulf_apply, broadcastTo_1b_ab_apply, slice2_axis0_apply o mu hsl 0 col j (by rw [hj]; rfl)]

end Cert.KernelIdeal.OneHot

end
-- ==== Proof.KI.OneHotPay.lean ====
import proofs.«421389_j87436944212793_2_alg».proof.Proof.KI.OneHot
import proofs.«421389_j87436944212793_2_alg».proof.Proof.Gen.KernelIdeal.Skeleton

noncomputable section

open scoped BigOperators

namespace Cert.KernelIdeal.OneHot

open Cert.KernelIdeal
open Idealize.ShloMosaic Idealize.ShloMosaic.ValueIdx

theorem index_row_apply {R : ℕ} (x : (⟨2, ![R, 1024]⟩ : Shape).Idx → BitVec 32) (o : Nat)
    (inb : ∀ a, (![o, 0] : Fin 2 → Nat) a + (![1, 1024] : Fin 2 → Nat) a ≤ (⟨2, ![R, 1024]⟩ : Shape).size a)
    (col : Fin 1024) (k : Fin R) (hk : k.val = o) :
    View.ld (Val := Elt Ideal) (e' := .i32) x (Rect.unit (s := ⟨2, ![R, 1024]⟩) ![o, 0] ![1, 1024] inb) (ix2 0 col) = x (ix2 k col) := by
  show x _ = x _
  congr 1
  funext a
  apply Fin.ext
  match a with
  | ⟨0, _⟩ => show o + 1 * 0 = k.val; omega
  | ⟨1, _⟩ => show 0 + 1 * col.val = col.val; omega

/-- A factor gathered by row `o` of the index block is the feature the block's word at `(o, col)` names. -/
theorem factor_row_apply {R : ℕ} (xh xl : FVec Ideal S1024x1024 .bf16) (x : (⟨2, ![R, 1024]⟩ : Shape).Idx → BitVec 32) (o : Nat)
    (inb : ∀ a, (![o, 0] : Fin 2 → Nat) a + (![1, 1024] : Fin 2 → Nat) a ≤ (⟨2, ![R, 1024]⟩ : Shape).size a)
    (hlo : ∀ i, xl i = 0) (hI : ∀ i, (x i).toNat < 1024) (hcc : S1024x1024.ShapeCasts S1024x1024) (n col : Fin 1024)
    (k : Fin R) (hk : k.val = o) :
    addf (matmul dot_S1024x1024_S1024x1024_S1024x1024_1_0_0_1_n_n none (shapeCast S1024x1024 xh hcc)
            (onehot (View.ld (Val := Elt Ideal) (e' := .i32) x (Rect.unit (s := ⟨2, ![R, 1024]⟩) ![o, 0] ![1, 1024] inb)))
            (constant (F := Ideal) S1024x1024 .f32 0x00000000#32))
         (matmul dot_S1024x1024_S1024x1024_S1024x1024_1_0_0_1_n_n none (shapeCast S1024x1024 xl hcc)
            (onehot (View.ld (Val := Elt Ideal) (e' := .i32) x (Rect.unit (s := ⟨2, ![R, 1024]⟩) ![o, 0] ![1, 1024] inb)))
            (constant (F := Ideal) S1024x1024 .f32 0x00000000#32)) (ix2 n col)
      = Cert.Spec.feat xh n (x (ix2 k col)) :=
  (factor_apply xh xl _ hlo hcc n col (by rw [index_row_apply x o inb col k hk]; exact hI _)).trans
    (by rw [index_row_apply x o inb col k hk])

theorem accumulate_apply (c0 c1 c2 c3 : FVec Ideal S1024x1 .f32) (prev : Vec Ideal S1x1024x4 .f32)
    (hcat : Shape.Concatenates [S1024x1, S1024x1, S1024x1, S1024x1] S1024x4 1)
    (hp : S1x1024x4.ShapeCasts S1024x4) (hq : S1024x4.ShapeCasts S1x1024x4) (n : Fin 1024) (j : Fin 4) :
    shapeCast S1x1024x4 (addf (shapeCast S1024x4 prev hp)
        (concatenate S1024x4 1 [⟨S1024x1, c0⟩, ⟨S1024x1, c1⟩, ⟨S1024x1, c2⟩, ⟨S1024x1, c3⟩] hcat)) hq (ix3 0 n j)
      = prev (ix3 0 n j) + ![c0, c1, c2, c3] j (ix2 n 0) := by
  rw [shapeCast_ab_1ab_apply, addf_apply, shapeCast_1ab_ab_apply]
  congr 1
  have hi : ∀ (jj : Fin 4) (b : Fin S1024x1.rank), b.cast (rfl : S1024x1.rank = S1024x4.rank) ≠ (1 : Fin 2) →
      ((ix2 n (0 : Fin 1) : S1024x1.Idx) b).val = ((ix2 n jj : S1024x4.Idx) (b.cast rfl)).val := fun jj b hb => by
    match b with
    | ⟨0, _⟩ => rfl
    | ⟨1, _⟩ => exact absurd rfl hb
  have cp := concatenate_apply_piece (t := S1024x4) (a := (1 : Fin 2)) [⟨S1024x1, c0⟩, ⟨S1024x1, c1⟩, ⟨S1024x1, c2⟩, ⟨S1024x1, c3⟩] hcat
  match j with
  | ⟨0, _⟩ => exact cp _ 0 (by simp) S1024x1 c0 rfl rfl 0 rfl (ix2 n 0) (hi _) rfl
  | ⟨1, _⟩ => exact cp _ 1 (by simp) S1024x1 c1 rfl rfl 1 rfl (ix2 n 0) (hi _) rfl
  | ⟨2, _⟩ => exact cp _ 2 (by simp) S1024x1 c2 rfl rfl 2 rfl (ix2 n 0) (hi _) rfl
  | ⟨3, _⟩ => exact cp _ 3 (by simp) S1024x1 c3 rfl rfl 3 rfl (ix2 n 0) (hi _) rfl

/-- Column `j` of the four is the product matrix's row sum against coefficient row `j`. -/
theorem k0_pay1_apply (q : FVec Ideal S1024x1024 .f32) (mu : FVec Ideal S4x1024 .f32) (prev : Vec Ideal S1x1024x4 .f32)
    (n : Fin 1024) (j : Fin 4) :
    Gen.k0_pay1 (F := Ideal) q mu prev (ix3 0 n j)
      = prev (ix3 0 n j) + ∑ col : Fin 1024, q (ix2 n col) * mu (ix2 j col) := by
  unfold Gen.k0_pay1
  refine (accumulate_apply _ _ _ _ prev _ _ _ n j).trans (congrArg (_ + ·) ?_)
  match j with
  | ⟨0, _⟩ => exact rowsum_apply q mu 0 _ _ _ (.inl rfl) rfl _ n 0 0 rfl
  | ⟨1, _⟩ => exact rowsum_apply q mu 1 _ _ _ (.inl rfl) rfl _ n 0 1 rfl
  | ⟨2, _⟩ => exact rowsum_apply q mu 2 _ _ _ (.inl rfl) rfl _ n 0 2 rfl
  | ⟨3, _⟩ => exact rowsum_apply q mu 3 _ _ _ (.inl rfl) rfl _ n 0 3 rfl

end Cert.KernelIdeal.OneHot

end
-- ==== Proof.KI.Val0Pay.lean ====
import proofs.«421389_j87436944212793_2_alg».proof.Proof.KI.Val0Pieces
import proofs.«421389_j87436944212793_2_alg».proof.Proof.KI.OneHotPay

noncomputable section

open scoped BigOperators

namespace Cert.KernelIdeal.OneHot

open Cert.KernelIdeal
open Idealize.ShloMosaic Idealize.ShloMosaic.ValueIdx

/-- Each factor is a gathered feature, and the last step adds the four row sums to what the block held. -/
theorem tile0_apply (x0 x1 : Vec Ideal S1024x1024 .bf16) (x2 : Vec Ideal S2x1024 .i32) (x3 : Vec Ideal S4x1024 .f32)
    (acc : Vec Ideal S1x1024x4 .f32) (hlo : ∀ i, x1 i = 0) (hI : ∀ i, (x2 i).toNat < 1024) (n : Fin 1024) (j : Fin 4) :
    Gen.tile0 (F := Ideal) x0 x1 x2 x3 acc (ix3 0 n j)
      = acc (ix3 0 n j) + ∑ col : Fin 1024,
          (x0 (ix2 n (Cert.Spec.col (x2 (ix2 0 col)))) * x0 (ix2 n (Cert.Spec.col (x2 (ix2 1 col))))) * x3 (ix2 j col) := by
  unfold Gen.tile0
  refine (k0_pay1_apply _ _ acc n j).trans (congrArg (_ + ·) (Finset.sum_congr rfl fun col _ => ?_))
  refine congrArg₂ (· * ·) ?_ (congrFun (shapeCast_self x3 _) _)
  unfold Gen.k0_pay3
  exact (mulf_apply _ _ _).trans (congrArg₂ (· * ·) (factor_row_apply x0 x1 x2 0 _ hlo hI _ n col 0 rfl)
    (factor_row_apply x0 x1 x2 1 _ hlo hI _ n col 1 rfl))

end Cert.KernelIdeal.OneHot

end
-- ==== Proof.KI.ValLib.lean ====
import Idealize.ShloMosaic.Lib.Pipeline.Value

open scoped BigOperators

namespace Cert.KernelIdeal.ValLib

open Idealize.ShloMosaic

/-- `T` tiles of `W` columns each, from tile `b` on, are the `T * W` columns from `b * W` on. -/
theorem sum_tiles {M : Type*} [AddCommMonoid M] (f : ℕ → M) (W b : ℕ) : ∀ T : ℕ,
    ∑ s ∈ Finset.range T, ∑ q ∈ Finset.range W, f ((b + s) * W + q) = ∑ p ∈ Finset.range (T * W), f (b * W + p)
  | 0 => by rw [Nat.zero_mul, Finset.sum_range_zero, Finset.sum_range_zero]
  | T + 1 => by
    rw [Finset.sum_range_succ, sum_tiles f W b T, Nat.succ_mul, Finset.sum_range_add]
    refine congrArg _ (Finset.sum_congr rfl fun q _ => congrArg f ?_)
    rw [Nat.add_mul, Nat.add_assoc]

/-- A sequence reset to `tile n z` (`z` zero) at the multiples of `T` and stepped by `tile n` elsewhere, each step adding `W` terms, holds at the end of a period its `T * W` terms. -/
theorem period_sum {ι β : Type*} [AddCommMonoid β] {N : ℕ} (f : (n : ℕ) → n < N → ι → β)
    (tile : (n : ℕ) → n < N → (ι → β) → ι → β) (z : ι → β) (term : ι → ℕ → β) (T W : ℕ)
    (hz : ∀ i, z i = 0) (h0 : ∀ (n : ℕ) (h : n < N), n % T = 0 → f n h = tile n h z)
    (hs : ∀ (n : ℕ) (h : n + 1 < N), ¬(n + 1) % T = 0 → f (n + 1) h = tile (n + 1) h (f n (Nat.lt_of_succ_lt h)))
    (ht : ∀ (n : ℕ) (h : n < N) (acc : ι → β) (i : ι),
      tile n h acc i = acc i + ∑ q ∈ Finset.range W, term i (n * W + q))
    (t : ℕ) (h : t < N) (hl : t % T + 1 = T) (i : ι) :
    f t h i = ∑ p ∈ Finset.range (T * W), term i (T * (t / T) * W + p) := by
  have h' : T * (t / T) + t % T < N := by rw [Nat.div_add_mod]; exact h
  rw [Pipeline.eq_accAt_of_mod f T (fun n h => tile n h z) tile h0 hs (by omega) t h h',
    Pipeline.accAt_add_apply (fun n h => tile n h z) tile (fun _ => 0)
      (fun n i => ∑ q ∈ Finset.range W, term i (n * W + q)) (T * (t / T)) (t % T)
      (fun h i => by rw [ht, hz]) (fun n h acc i _ _ => ht n h acc i) (t % T) le_rfl h' i]
  rw [zero_add, hl]
  exact sum_tiles (term i) W _ T

end Cert.KernelIdeal.ValLib
-- ==== Proof.KI.Val0Fold.lean ====
import proofs.«421389_j87436944212793_2_alg».proof.Proof.KI.Val0Pay
import proofs.«421389_j87436944212793_2_alg».proof.Proof.KI.ValLib

noncomputable section

namespace Cert.KernelIdeal.Gen

open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

abbrev Xhi0 (c : Dev nD) : Vec Ideal S1024x1024 .bf16 := V c main_v13
abbrev Xlo0 (c : Dev nD) : Vec Ideal S1024x1024 .bf16 := V c main_v16
abbrev Iarr0 (c : Dev nD) : Vec Ideal S2x20480 .i32 := V c main_v18
abbrev Marr0 (c : Dev nD) : Vec Ideal S4x20480 .f32 := V c main_v20
abbrev bhi0 (c : Dev nD) (t : Fin cfg0.N) : Vec Ideal S1024x1024 .bf16 := iblk0 V c 0 t
abbrev blo0 (c : Dev nD) (t : Fin cfg0.N) : Vec Ideal S1024x1024 .bf16 := iblk0 V c 1 t
abbrev bidx0 (c : Dev nD) (t : Fin cfg0.N) : Vec Ideal S2x1024 .i32 := iblk0 V c 2 t
abbrev bmu0 (c : Dev nD) (t : Fin cfg0.N) : Vec Ideal S4x1024 .f32 := iblk0 V c 3 t

theorem idx_facts0 : ∀ t : Fin cfg0.N,
    (win0_0.index t 0 = 0 ∧ win0_0.index t 1 = 0) ∧ (win0_2.index t 0 = 0 ∧ win0_2.index t 1 = t.val)
    ∧ (win0_3.index t 0 = 0 ∧ win0_3.index t 1 = t.val)
    ∧ (win0_4.index t 0 = t.val / 10 ∧ win0_4.index t 1 = 0 ∧ win0_4.index t 2 = 0) :=
  (by decide +kernel : ∀ t : Fin grid0.N, _)

/-- Zero outside the arrays' extents, so that the sums below range over plain naturals. -/
def term0 (c : Dev nD) (n j p : ℕ) : EReal :=
  if h : n < 1024 ∧ j < 4 ∧ p < 20480 then
    (Spec.feat (Xhi0 V c) ⟨n, h.1⟩ (Iarr0 V c (ix2 (0 : Fin 2) (⟨p, h.2.2⟩ : Fin 20480))) * Spec.feat (Xhi0 V c) ⟨n, h.1⟩ (Iarr0 V c (ix2 (1 : Fin 2) (⟨p, h.2.2⟩ : Fin 20480))))
      * Marr0 V c (ix2 (⟨j, h.2.1⟩ : Fin 4) (⟨p, h.2.2⟩ : Fin 20480))
  else 0

theorem zero0 (i : S1x1024x4.Idx) : k0_pay2 (F := Ideal) i = 0 := Ideal.ofBits_zero_f32

theorem tile0_blocks (c : Dev nD) (t : Fin cfg0.N) (hlo : ∀ i, Xlo0 V c i = 0)
    (hI : ∀ i, (Iarr0 V c i : BitVec 32).toNat < 1024) (acc : Vec Ideal S1x1024x4 .f32) (i : S1x1024x4.Idx) :
    tile0 (bhi0 V c t) (blo0 V c t) (bidx0 V c t) (bmu0 V c t) acc i
      = acc i + ∑ q ∈ Finset.range 1024, term0 V c (i 1).val (i 2).val (t.val * 1024 + q) := by
  have hN : t.val < 20 := lt_of_lt_of_eq t.isLt (show cfg0.N = 20 from N_0)
  obtain ⟨⟨a0, a1⟩, ⟨b0, b1⟩, ⟨c0, c1⟩, -⟩ := idx_facts0 t
  obtain ⟨u, n, j, rfl⟩ : ∃ (u : Fin 1) (n : Fin 1024) (j : Fin 4), i = ix3 u n j := ⟨i 0, i 1, i 2, eq_ix3 i⟩
  obtain rfl : u = 0 := Subsingleton.elim _ _
  refine (OneHot.tile0_apply (bhi0 V c t) (blo0 V c t) (bidx0 V c t) (bmu0 V c t) acc (fun _ => hlo _) (fun _ => hI _) n j).trans ?_
  refine congrArg (acc (ix3 0 n j) + ·) ?_
  show _ = ∑ q ∈ Finset.range 1024, term0 V c n.val j.val (t.val * 1024 + q)
  rw [← Fin.sum_univ_eq_sum_range (fun q => term0 V c n.val j.val (t.val * 1024 + q)) 1024]
  refine Finset.sum_congr rfl fun q _ => ?_
  have hq : t.val * 1024 + q.val < 20480 := by have := q.isLt; omega
  have hx : ∀ d : Fin 1024, bhi0 V c t (ix2 n d) = Xhi0 V c (ix2 n d) := fun d => congrArg (Xhi0 V c) (funext fun a => Fin.ext (by
    match a with
    | ⟨0, _⟩ => show win0_0.index t 0 * 1024 + 1 * n.val = n.val; omega
    | ⟨1, _⟩ => show win0_0.index t 1 * 1024 + 1 * d.val = d.val; omega))
  have hi : ∀ r : Fin 2, bidx0 V c t (ix2 r q) = Iarr0 V c (ix2 r ⟨t.val * 1024 + q.val, hq⟩) := fun r => congrArg (Iarr0 V c) (funext fun a => Fin.ext (by
    match a with
    | ⟨0, _⟩ => show win0_2.index t 0 * 2 + 1 * r.val = r.val; omega
    | ⟨1, _⟩ => show win0_2.index t 1 * 1024 + 1 * q.val = t.val * 1024 + q.val; omega))
  have hm : bmu0 V c t (ix2 j q) = Marr0 V c (ix2 j ⟨t.val * 1024 + q.val, hq⟩) := congrArg (Marr0 V c) (funext fun a => Fin.ext (by
    match a with
    | ⟨0, _⟩ => show win0_3.index t 0 * 4 + 1 * j.val = j.val; omega
    | ⟨1, _⟩ => show win0_3.index t 1 * 1024 + 1 * q.val = t.val * 1024 + q.val; omega))
  unfold term0
  rw [dif_pos ⟨n.isLt, j.isLt, hq⟩, hi, hi, hm]
  unfold Spec.feat
  rw [hx, hx]

def outG0 (c : Dev nD) : Vec Ideal S2x1024x4 .f32 :=
  fun i => ∑ p ∈ Finset.range 10240, term0 V c (i 1).val (i 2).val ((i 0).val * 10240 + p)

theorem flushed0_eq (c : Dev nD) (hlo : ∀ i, Xlo0 V c i = 0) (hI : ∀ i, (Iarr0 V c i : BitVec 32).toNat < 1024)
    (t : Fin cfg0.N) (hf : (cfg0.win 4).flush t = true) :
    (dat0 V c).flushed 4 t = ((cfg0.win 4).blk t).view.read (Elt Ideal) (outG0 V c) := by
  have hN : t.val < 20 := lt_of_lt_of_eq t.isLt (show cfg0.N = 20 from N_0)
  have hl : t.val % 10 = 9 := (flush0_4 t).mp hf
  obtain ⟨-, -, -, i0, i1, i2⟩ := idx_facts0 t
  show (cfg0.win 4).cut (grid0.coords t) ((dat0 V c).after 4 t) = _
  rw [after0_4]
  funext y
  obtain ⟨p, n, j, rfl⟩ : ∃ (p : Fin 1) (n : Fin 1024) (j : Fin 4), y = ix3 p n j := ⟨y 0, y 1, y 2, eq_ix3 y⟩
  obtain rfl : p = 0 := Subsingleton.elim _ _
  have hemb : ((cfg0.win 4).blk t).view.emb (ix3 0 n j) = ix3 (⟨t.val / 10, by omega⟩ : Fin 2) n j := by
    funext d; apply Fin.ext
    match d with
    | ⟨0, _⟩ => show win0_4.index t 0 * 1 + 1 * 0 = t.val / 10; omega
    | ⟨1, _⟩ => show win0_4.index t 1 * 1024 + 1 * n.val = n.val; omega
    | ⟨2, _⟩ => show win0_4.index t 2 * 4 + 1 * j.val = j.val; omega
  have key : outsAt0 V c t.val t.isLt (ix3 0 n j) = outG0 V c (ix3 (⟨t.val / 10, by omega⟩ : Fin 2) n j) := by
    rw [ValLib.period_sum (outsAt0 V c)
      (fun n h acc => tile0 (bhi0 V c ⟨n, h⟩) (blo0 V c ⟨n, h⟩) (bidx0 V c ⟨n, h⟩) (bmu0 V c ⟨n, h⟩) acc)
      (k0_pay2 (F := Ideal)) (fun i p => term0 V c (i 1).val (i 2).val p) 10 1024 zero0
      (fun n h h0 => outsAt0_reset_eq V c ⟨n, h⟩ h0) (fun n h h0 => outsAt0_acc_eq V c ⟨n + 1, h⟩ h0)
      (fun n h acc i => tile0_blocks V c ⟨n, h⟩ hlo hI acc i) t.val t.isLt (by omega)]
    show ∑ p ∈ Finset.range 10240, term0 V c n.val j.val (10 * (t.val / 10) * 1024 + p)
      = ∑ p ∈ Finset.range 10240, term0 V c n.val j.val (t.val / 10 * 10240 + p)
    refine Finset.sum_congr rfl fun p _ => ?_
    congr 1; omega
  generalize outsAt0 V c t.val t.isLt = X at key ⊢
  generalize outG0 V c = G at key ⊢
  show X (ix3 0 n j) = G (((cfg0.win 4).blk t).view.emb (ix3 0 n j))
  rw [hemb]; exact key

theorem arrAt0_eq (c : Dev nD) (hlo : ∀ i, Xlo0 V c i = 0) (hI : ∀ i, (Iarr0 V c i : BitVec 32).toNat < 1024) :
    (dat0 V c).arrAt 4 cfg0.N = outG0 V c :=
  (dat0 V c).arrAt_eq_of_cover 4 (outG0 V c) (flushed0_eq V c hlo hI) fun i => by
    have h0 : (i 0).val < 2 := (i 0).isLt
    have h1 : (i 1).val < 1024 := (i 1).isLt
    have h2 : (i 2).val < 4 := (i 2).isLt
    obtain ⟨tt, htt⟩ : ∃ tt : Fin cfg0.N, tt.val = (i 0).val * 10 + 9 :=
      ⟨⟨(i 0).val * 10 + 9, by rw [show cfg0.N = 20 from N_0]; omega⟩, rfl⟩
    refine ⟨tt, (flush0_4 tt).mpr (by omega), ?_⟩
    obtain ⟨-, -, -, i0, i1, i2⟩ := idx_facts0 tt
    show i ∈ ((View.whole main_v21).slice (win0_4.rect tt)).set
    rw [View.set_slice_whole, Rect.mem_set_unit]
    intro a
    match a with
    | ⟨0, _⟩ =>
      show win0_4.index tt 0 * 1 ≤ (i 0 : ℕ) ∧ (i 0 : ℕ) < win0_4.index tt 0 * 1 + 1
      rw [i0]; omega
    | ⟨1, _⟩ =>
      show win0_4.index tt 1 * 1024 ≤ (i 1 : ℕ) ∧ (i 1 : ℕ) < win0_4.index tt 1 * 1024 + 1024
      rw [i1]; omega
    | ⟨2, _⟩ =>
      show win0_4.index tt 2 * 4 ≤ (i 2 : ℕ) ∧ (i 2 : ℕ) < win0_4.index tt 2 * 4 + 4
      rw [i2]; omega

theorem arrAt0_apply (c : Dev nD)
    (hlo : ∀ i, (V c main_v16 : S1024x1024.Idx → EReal) i = (0 : EReal))
    (hI : ∀ i, ((V c main_v18 : S2x20480.Idx → BitVec 32) i).toNat < 1024)
    (s : Fin 2) (n : Fin 1024) (j : Fin 4) :
    ((dat0 (F := Ideal) V c).arrAt 4 cfg0.N : S2x1024x4.Idx → EReal) (ix3 s n j)
      = ∑ q : Fin 10240,
          (Spec.feat (V c main_v13 : S1024x1024.Idx → EReal) n ((V c main_v18 : S2x20480.Idx → BitVec 32) (ix2 0 ⟨s.val * 10240 + q.val, by have := s.isLt; have := q.isLt; omega⟩))
            * Spec.feat (V c main_v13 : S1024x1024.Idx → EReal) n ((V c main_v18 : S2x20480.Idx → BitVec 32) (ix2 1 ⟨s.val * 10240 + q.val, by have := s.isLt; have := q.isLt; omega⟩)))
          * (V c main_v20 : S4x20480.Idx → EReal) (ix2 j ⟨s.val * 10240 + q.val, by have := s.isLt; have := q.isLt; omega⟩) := by
  rw [arrAt0_eq V c hlo hI]
  unfold outG0
  show ∑ p ∈ Finset.range 10240, term0 V c n.val j.val (s.val * 10240 + p) = _
  rw [← Fin.sum_univ_eq_sum_range (fun p => term0 V c n.val j.val (s.val * 10240 + p)) 10240]
  refine Finset.sum_congr rfl fun q _ => ?_
  have hq : s.val * 10240 + q.val < 20480 := by have := s.isLt; have := q.isLt; omega
  unfold term0
  rw [dif_pos ⟨n.isLt, j.isLt, hq⟩]

end Cert.KernelIdeal.Gen

end
-- ==== Proof.KI.Val1Pieces.lean ====
import proofs.«421389_j87436944212793_2_alg».proof.Proof.KI.Reg1Frame
import Idealize.ShloMosaic.Lib.Pipeline.Value
import Idealize.ShloMosaic.Lib.QrPanel.Panel

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
open Idealize.ShloMosaic.QrPanel.Panel (zeros2 zeros3)

abbrev irow1_0 (x2 : Vec F S3x1024 .i32) : Vec F S1x1024 .i32 := View.ld x2 (Rect.unit (s := S3x1024) ![0, 0] S1x1024.size inb_S3x1024_S1x1024_0_0)
abbrev irow1_1 (x2 : Vec F S3x1024 .i32) : Vec F S1x1024 .i32 := View.ld x2 (Rect.unit (s := S3x1024) ![1, 0] S1x1024.size inb_S3x1024_S1x1024_1_0)
abbrev irow1_2 (x2 : Vec F S3x1024 .i32) : Vec F S1x1024 .i32 := View.ld x2 (Rect.unit (s := S3x1024) ![2, 0] S1x1024.size inb_S3x1024_S1x1024_2_0)

/-- One tile's update of the output block `acc`: per coefficient row, the sum over the tile's columns of the three gathered factors' product times the coefficient, added to it. -/
def tile1 (x0 x1 : Vec F S1024x1024 .bf16) (x2 : Vec F S3x1024 .i32) (x3 : Vec F S4x1024 .f32) (acc : Vec F S1x1024x4 .f32) :
    Vec F S1x1024x4 .f32 :=
  k1_pay1 (k1_pay5 (iota Kind.tc S1024x1024 32 [0] iota_S1024x1024_d0_w32)
    (k1_pay3 (irow1_0 x2) x0 x1 (irow1_1 x2) x0 x1) (k1_pay4 (irow1_2 x2)) x0 x1 x3 acc)

variable (V : (c : Dev nD) → (b : Ref sig .tc) → Buf (Elt F) ((c : Thread nD τ).loc b))
variable {arg2 arg3 : Memref sig .tc .vmem S1024x1024 .bf16} {arg4 : Memref sig .tc .vmem S3x1024 .i32} {arg5 : Memref sig .tc .vmem S4x1024 .f32} {arg6 : Memref sig .tc .vmem S1x1024x4 .f32}
variable (c : Dev nD) (i : grid1.Coords) (harg2 : arg2.IsWhole) (harg3 : arg3.IsWhole) (harg4 : arg4.IsWhole) (harg5 : arg5.IsWhole) (harg6 : arg6.IsWhole)
  (x0 x1 : Vec F S1024x1024 .bf16) (x2 : Vec F S3x1024 .i32) (x3 : Vec F S4x1024 .f32)

/-- In either case the body's last store covers the whole block, so it alone is what the buffer holds: the tile's update of the zero block just stored, or of what was there. -/
theorem kernelRun1_eq :
    (∀ hc0, (kernelRun1_A c i harg2 harg3 harg4 harg5 harg6 x0 x1 x2 x3 hc0).1 = tile1 x0 x1 x2 x3 (k1_pay2 (F := F)))
      ∧ ∀ hc0 xo4, (kernelRun1_B c i harg2 harg3 harg4 harg5 harg6 x0 x1 x2 x3 hc0 xo4).1 = tile1 x0 x1 x2 x3 xo4 := by
  refine ⟨fun _ => ?_, fun _ _ => ?_⟩
  all_goals
    simp only [kernelRun1_A, kernelRun1_B, pieces1_A, pieces1_B]
    rw [View.read_writes_eq_canon _ _ _ (View.cover_of_tiledL _ S1x1024x4.size (by sl_kernel_rfl))]
    sl_unfold_words
    rw [View.canon_cons_unit_zero (S := S1x1024x4) zeros3]
    simp only [View.readAt_eq_ld, harg2.read_unread, harg3.read_unread, harg4.read_unread, harg5.read_unread, harg6.read_unread, View.readCov_unit_zero (S := S1x1024x4) _ zeros3, View.ld_unit_zero (S := S1x1024x4) zeros3, View.ld_unit_zero (S := S1024x1024) zeros2, View.ld_unit_zero (S := S4x1024) zeros2]
    rfl

variable (t : Fin cfg1.N)

theorem outsAt1_reset_eq (h0 : t.val % 20 = 0) :
    outsAt1 V c t.val t.isLt = tile1 (iblk1 V c 0 t) (iblk1 V c 1 t) (iblk1 V c 2 t) (iblk1 V c 3 t) (k1_pay2 (F := F)) :=
  (outsAt1_A V c t h0).trans ((kernelRun1_eq c ..).1 _)

theorem outsAt1_acc_eq (h0 : ¬t.val % 20 = 0) :
    outsAt1 V c t.val t.isLt = tile1 (iblk1 V c 0 t) (iblk1 V c 1 t) (iblk1 V c 2 t) (iblk1 V c 3 t)
      (outsAt1 V c (t.val - 1) (Nat.lt_of_le_of_lt (Nat.sub_le _ _) t.isLt)) :=
  (outsAt1_B V c t h0).trans ((kernelRun1_eq c ..).2 _ _)

end Cert.KernelIdeal.Gen

end
-- ==== Proof.KI.Val1Pay.lean ====
import proofs.«421389_j87436944212793_2_alg».proof.Proof.KI.Val1Pieces
import proofs.«421389_j87436944212793_2_alg».proof.Proof.KI.OneHotPay

noncomputable section

namespace Cert.KernelIdeal.Gen

open Idealize.ShloMosaic Idealize.ShloMosaic.ValueIdx
open scoped BigOperators

/-- Each factor is a gathered feature, and the last step adds the four row sums to what the block held. -/
theorem tile1_apply (x0 x1 : Vec Ideal S1024x1024 .bf16) (x2 : Vec Ideal S3x1024 .i32) (x3 : Vec Ideal S4x1024 .f32)
    (acc : Vec Ideal S1x1024x4 .f32) (hlo : ∀ i, x1 i = 0) (hI : ∀ i, (x2 i : BitVec 32).toNat < 1024)
    (u : Fin 1) (n : Fin 1024) (j : Fin 4) :
    tile1 x0 x1 x2 x3 acc (ix3 u n j) = acc (ix3 u n j)
      + ∑ q : Fin 1024, ((Spec.feat x0 n (x2 (ix2 (0 : Fin 3) q)) * Spec.feat x0 n (x2 (ix2 (1 : Fin 3) q)))
          * Spec.feat x0 n (x2 (ix2 (2 : Fin 3) q))) * x3 (ix2 j q) := by
  obtain rfl : u = 0 := Subsingleton.elim _ _
  unfold tile1 k1_pay1 k1_pay5 k1_pay4
  dsimp only
  refine (OneHot.k0_pay1_apply _ _ acc n j).trans (congrArg (_ + ·) (Finset.sum_congr rfl fun col _ => ?_))
  refine congrArg₂ (· * ·) ?_ (congrFun (shapeCast_self x3 _) _)
  unfold k1_pay3
  exact (mulf_apply _ _ _).trans (congrArg₂ (· * ·) ((mulf_apply _ _ _).trans (congrArg₂ (· * ·)
    (OneHot.factor_row_apply x0 x1 x2 0 _ hlo hI _ n col 0 rfl) (OneHot.factor_row_apply x0 x1 x2 1 _ hlo hI _ n col 1 rfl)))
    (OneHot.factor_row_apply x0 x1 x2 2 _ hlo hI _ n col 2 rfl))

end Cert.KernelIdeal.Gen

end
-- ==== Proof.KI.Val1Fold.lean ====
import proofs.«421389_j87436944212793_2_alg».proof.Proof.KI.Val1Pay
import proofs.«421389_j87436944212793_2_alg».proof.Proof.KI.ValLib

noncomputable section

namespace Cert.KernelIdeal.Gen

open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

abbrev Xhi1 (c : Dev nD) : Vec Ideal S1024x1024 .bf16 := V c main_v13
abbrev Xlo1 (c : Dev nD) : Vec Ideal S1024x1024 .bf16 := V c main_v16
abbrev Iarr1 (c : Dev nD) : Vec Ideal S3x40960 .i32 := V c main_v24
abbrev Marr1 (c : Dev nD) : Vec Ideal S4x40960 .f32 := V c main_v26
abbrev bhi1 (c : Dev nD) (t : Fin cfg1.N) : Vec Ideal S1024x1024 .bf16 := iblk1 V c 0 t
abbrev blo1 (c : Dev nD) (t : Fin cfg1.N) : Vec Ideal S1024x1024 .bf16 := iblk1 V c 1 t
abbrev bidx1 (c : Dev nD) (t : Fin cfg1.N) : Vec Ideal S3x1024 .i32 := iblk1 V c 2 t
abbrev bmu1 (c : Dev nD) (t : Fin cfg1.N) : Vec Ideal S4x1024 .f32 := iblk1 V c 3 t

theorem idx_facts1 : ∀ t : Fin cfg1.N,
    (win1_0.index t 0 = 0 ∧ win1_0.index t 1 = 0) ∧ (win1_2.index t 0 = 0 ∧ win1_2.index t 1 = t.val)
    ∧ (win1_3.index t 0 = 0 ∧ win1_3.index t 1 = t.val)
    ∧ (win1_4.index t 0 = t.val / 20 ∧ win1_4.index t 1 = 0 ∧ win1_4.index t 2 = 0) :=
  (by decide +kernel : ∀ t : Fin grid1.N, _)

/-- Zero outside the arrays' extents, so that the sums below range over plain naturals. -/
def term1 (c : Dev nD) (n j p : ℕ) : EReal :=
  if h : n < 1024 ∧ j < 4 ∧ p < 40960 then
    ((Spec.feat (Xhi1 V c) ⟨n, h.1⟩ (Iarr1 V c (ix2 (0 : Fin 3) (⟨p, h.2.2⟩ : Fin 40960))) * Spec.feat (Xhi1 V c) ⟨n, h.1⟩ (Iarr1 V c (ix2 (1 : Fin 3) (⟨p, h.2.2⟩ : Fin 40960)))) * Spec.feat (Xhi1 V c) ⟨n, h.1⟩ (Iarr1 V c (ix2 (2 : Fin 3) (⟨p, h.2.2⟩ : Fin 40960))))
      * Marr1 V c (ix2 (⟨j, h.2.1⟩ : Fin 4) (⟨p, h.2.2⟩ : Fin 40960))
  else 0

theorem zero1 (i : S1x1024x4.Idx) : k1_pay2 (F := Ideal) i = 0 := Ideal.ofBits_zero_f32

theorem tile1_blocks (c : Dev nD) (t : Fin cfg1.N) (hlo : ∀ i, Xlo1 V c i = 0)
    (hI : ∀ i, (Iarr1 V c i : BitVec 32).toNat < 1024) (acc : Vec Ideal S1x1024x4 .f32) (i : S1x1024x4.Idx) :
    tile1 (bhi1 V c t) (blo1 V c t) (bidx1 V c t) (bmu1 V c t) acc i
      = acc i + ∑ q ∈ Finset.range 1024, term1 V c (i 1).val (i 2).val (t.val * 1024 + q) := by
  have hN : t.val < 40 := lt_of_lt_of_eq t.isLt (show cfg1.N = 40 from N_1)
  obtain ⟨⟨a0, a1⟩, ⟨b0, b1⟩, ⟨c0, c1⟩, -⟩ := idx_facts1 t
  obtain ⟨u, n, j, rfl⟩ : ∃ (u : Fin 1) (n : Fin 1024) (j : Fin 4), i = ix3 u n j := ⟨i 0, i 1, i 2, eq_ix3 i⟩
  obtain rfl : u = 0 := Subsingleton.elim _ _
  refine (tile1_apply (bhi1 V c t) (blo1 V c t) (bidx1 V c t) (bmu1 V c t) acc (fun _ => hlo _) (fun _ => hI _) 0 n j).trans ?_
  refine congrArg (acc (ix3 0 n j) + ·) ?_
  show _ = ∑ q ∈ Finset.range 1024, term1 V c n.val j.val (t.val * 1024 + q)
  rw [← Fin.sum_univ_eq_sum_range (fun q => term1 V c n.val j.val (t.val * 1024 + q)) 1024]
  refine Finset.sum_congr rfl fun q _ => ?_
  have hq : t.val * 1024 + q.val < 40960 := by have := q.isLt; omega
  have hx : ∀ d : Fin 1024, bhi1 V c t (ix2 n d) = Xhi1 V c (ix2 n d) := fun d => congrArg (Xhi1 V c) (funext fun a => Fin.ext (by
    match a with
    | ⟨0, _⟩ => show win1_0.index t 0 * 1024 + 1 * n.val = n.val; omega
    | ⟨1, _⟩ => show win1_0.index t 1 * 1024 + 1 * d.val = d.val; omega))
  have hi : ∀ r : Fin 3, bidx1 V c t (ix2 r q) = Iarr1 V c (ix2 r ⟨t.val * 1024 + q.val, hq⟩) := fun r => congrArg (Iarr1 V c) (funext fun a => Fin.ext (by
    match a with
    | ⟨0, _⟩ => show win1_2.index t 0 * 3 + 1 * r.val = r.val; omega
    | ⟨1, _⟩ => show win1_2.index t 1 * 1024 + 1 * q.val = t.val * 1024 + q.val; omega))
  have hm : bmu1 V c t (ix2 j q) = Marr1 V c (ix2 j ⟨t.val * 1024 + q.val, hq⟩) := congrArg (Marr1 V c) (funext fun a => Fin.ext (by
    match a with
    | ⟨0, _⟩ => show win1_3.index t 0 * 4 + 1 * j.val = j.val; omega
    | ⟨1, _⟩ => show win1_3.index t 1 * 1024 + 1 * q.val = t.val * 1024 + q.val; omega))
  unfold term1
  rw [dif_pos ⟨n.isLt, j.isLt, hq⟩, hi, hi, hi, hm]
  unfold Spec.feat
  rw [hx, hx, hx]

def outG1 (c : Dev nD) : Vec Ideal S2x1024x4 .f32 :=
  fun i => ∑ p ∈ Finset.range 20480, term1 V c (i 1).val (i 2).val ((i 0).val * 20480 + p)

theorem flushed1_eq (c : Dev nD) (hlo : ∀ i, Xlo1 V c i = 0) (hI : ∀ i, (Iarr1 V c i : BitVec 32).toNat < 1024)
    (t : Fin cfg1.N) (hf : (cfg1.win 4).flush t = true) :
    (dat1 V c).flushed 4 t = ((cfg1.win 4).blk t).view.read (Elt Ideal) (outG1 V c) := by
  have hN : t.val < 40 := lt_of_lt_of_eq t.isLt (show cfg1.N = 40 from N_1)
  have hl : t.val % 20 = 19 := (flush1_4 t).mp hf
  obtain ⟨-, -, -, i0, i1, i2⟩ := idx_facts1 t
  show (cfg1.win 4).cut (grid1.coords t) ((dat1 V c).after 4 t) = _
  rw [after1_4]
  funext y
  obtain ⟨p, n, j, rfl⟩ : ∃ (p : Fin 1) (n : Fin 1024) (j : Fin 4), y = ix3 p n j := ⟨y 0, y 1, y 2, eq_ix3 y⟩
  obtain rfl : p = 0 := Subsingleton.elim _ _
  have hemb : ((cfg1.win 4).blk t).view.emb (ix3 0 n j) = ix3 (⟨t.val / 20, by omega⟩ : Fin 2) n j := by
    funext d; apply Fin.ext
    match d with
    | ⟨0, _⟩ => show win1_4.index t 0 * 1 + 1 * 0 = t.val / 20; omega
    | ⟨1, _⟩ => show win1_4.index t 1 * 1024 + 1 * n.val = n.val; omega
    | ⟨2, _⟩ => show win1_4.index t 2 * 4 + 1 * j.val = j.val; omega
  have key : outsAt1 V c t.val t.isLt (ix3 0 n j) = outG1 V c (ix3 (⟨t.val / 20, by omega⟩ : Fin 2) n j) := by
    rw [ValLib.period_sum (outsAt1 V c)
      (fun n h acc => tile1 (bhi1 V c ⟨n, h⟩) (blo1 V c ⟨n, h⟩) (bidx1 V c ⟨n, h⟩) (bmu1 V c ⟨n, h⟩) acc)
      (k1_pay2 (F := Ideal)) (fun i p => term1 V c (i 1).val (i 2).val p) 20 1024 zero1
      (fun n h h0 => outsAt1_reset_eq V c ⟨n, h⟩ h0) (fun n h h0 => outsAt1_acc_eq V c ⟨n + 1, h⟩ h0)
      (fun n h acc i => tile1_blocks V c ⟨n, h⟩ hlo hI acc i) t.val t.isLt (by omega)]
    show ∑ p ∈ Finset.range 20480, term1 V c n.val j.val (20 * (t.val / 20) * 1024 + p)
      = ∑ p ∈ Finset.range 20480, term1 V c n.val j.val (t.val / 20 * 20480 + p)
    refine Finset.sum_congr rfl fun p _ => ?_
    congr 1; omega
  generalize outsAt1 V c t.val t.isLt = X at key ⊢
  generalize outG1 V c = G at key ⊢
  show X (ix3 0 n j) = G (((cfg1.win 4).blk t).view.emb (ix3 0 n j))
  rw [hemb]; exact key

theorem arrAt1_eq (c : Dev nD) (hlo : ∀ i, Xlo1 V c i = 0) (hI : ∀ i, (Iarr1 V c i : BitVec 32).toNat < 1024) :
    (dat1 V c).arrAt 4 cfg1.N = outG1 V c :=
  (dat1 V c).arrAt_eq_of_cover 4 (outG1 V c) (flushed1_eq V c hlo hI) fun i => by
    have h0 : (i 0).val < 2 := (i 0).isLt
    have h1 : (i 1).val < 1024 := (i 1).isLt
    have h2 : (i 2).val < 4 := (i 2).isLt
    obtain ⟨tt, htt⟩ : ∃ tt : Fin cfg1.N, tt.val = (i 0).val * 20 + 19 :=
      ⟨⟨(i 0).val * 20 + 19, by rw [show cfg1.N = 40 from N_1]; omega⟩, rfl⟩
    refine ⟨tt, (flush1_4 tt).mpr (by omega), ?_⟩
    obtain ⟨-, -, -, i0, i1, i2⟩ := idx_facts1 tt
    show i ∈ ((View.whole main_v27).slice (win1_4.rect tt)).set
    rw [View.set_slice_whole, Rect.mem_set_unit]
    intro a
    match a with
    | ⟨0, _⟩ =>
      show win1_4.index tt 0 * 1 ≤ (i 0 : ℕ) ∧ (i 0 : ℕ) < win1_4.index tt 0 * 1 + 1
      rw [i0]; omega
    | ⟨1, _⟩ =>
      show win1_4.index tt 1 * 1024 ≤ (i 1 : ℕ) ∧ (i 1 : ℕ) < win1_4.index tt 1 * 1024 + 1024
      rw [i1]; omega
    | ⟨2, _⟩ =>
      show win1_4.index tt 2 * 4 ≤ (i 2 : ℕ) ∧ (i 2 : ℕ) < win1_4.index tt 2 * 4 + 4
      rw [i2]; omega

theorem arrAt1_apply (c : Dev nD)
    (hlo : ∀ i, (V c main_v16 : S1024x1024.Idx → EReal) i = (0 : EReal))
    (hI : ∀ i, ((V c main_v24 : S3x40960.Idx → BitVec 32) i).toNat < 1024)
    (s : Fin 2) (n : Fin 1024) (j : Fin 4) :
    ((dat1 (F := Ideal) V c).arrAt 4 cfg1.N : S2x1024x4.Idx → EReal) (ix3 s n j)
      = ∑ q : Fin 20480,
          ((Spec.feat (V c main_v13 : S1024x1024.Idx → EReal) n ((V c main_v24 : S3x40960.Idx → BitVec 32) (ix2 (0 : Fin 3) (⟨s.val * 20480 + q.val, by have := s.isLt; have := q.isLt; omega⟩ : Fin 40960)))
            * Spec.feat (V c main_v13 : S1024x1024.Idx → EReal) n ((V c main_v24 : S3x40960.Idx → BitVec 32) (ix2 (1 : Fin 3) (⟨s.val * 20480 + q.val, by have := s.isLt; have := q.isLt; omega⟩ : Fin 40960))))
            * Spec.feat (V c main_v13 : S1024x1024.Idx → EReal) n ((V c main_v24 : S3x40960.Idx → BitVec 32) (ix2 (2 : Fin 3) (⟨s.val * 20480 + q.val, by have := s.isLt; have := q.isLt; omega⟩ : Fin 40960))))
          * (V c main_v26 : S4x40960.Idx → EReal) (ix2 j (⟨s.val * 20480 + q.val, by have := s.isLt; have := q.isLt; omega⟩ : Fin 40960)) := by
  rw [arrAt1_eq V c hlo hI]
  unfold outG1
  show ∑ p ∈ Finset.range 20480, term1 V c n.val j.val (s.val * 20480 + p) = _
  rw [← Fin.sum_univ_eq_sum_range (fun p => term1 V c n.val j.val (s.val * 20480 + p)) 20480]
  refine Finset.sum_congr rfl fun q _ => ?_
  have hq : s.val * 20480 + q.val < 40960 := by have := s.isLt; have := q.isLt; omega
  unfold term1
  rw [dif_pos ⟨n.isLt, j.isLt, hq⟩]

end Cert.KernelIdeal.Gen

end
-- ==== Proof.KI.Val2Pieces.lean ====
import proofs.«421389_j87436944212793_2_alg».proof.Proof.KI.Reg2Frame
import Idealize.ShloMosaic.Lib.Pipeline.Value
import Idealize.ShloMosaic.Lib.QrPanel.Panel

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
open Idealize.ShloMosaic.QrPanel.Panel (zeros2 zeros3)

abbrev idxRow2_0 (x2 : Vec F S4x1024 .i32) : Vec F S1x1024 .i32 := View.ld x2 (Rect.unit (s := S4x1024) ![0, 0] S1x1024.size inb_S4x1024_S1x1024_0_0)
abbrev idxRow2_1 (x2 : Vec F S4x1024 .i32) : Vec F S1x1024 .i32 := View.ld x2 (Rect.unit (s := S4x1024) ![1, 0] S1x1024.size inb_S4x1024_S1x1024_1_0)
abbrev idxRow2_2 (x2 : Vec F S4x1024 .i32) : Vec F S1x1024 .i32 := View.ld x2 (Rect.unit (s := S4x1024) ![2, 0] S1x1024.size inb_S4x1024_S1x1024_2_0)
abbrev idxRow2_3 (x2 : Vec F S4x1024 .i32) : Vec F S1x1024 .i32 := View.ld x2 (Rect.unit (s := S4x1024) ![3, 0] S1x1024.size inb_S4x1024_S1x1024_3_0)

/-- The tile's product block: at (atom, column) the product of the four gathered features, taken left to right. -/
def tileProd2 (x0 x1 : Vec F S1024x1024 .bf16) (x2 : Vec F S4x1024 .i32) : FVec F S1024x1024 .f32 :=
  k2_pay5 (iota .tc S1024x1024 32 [0] iota_S1024x1024_d0_w32)
    (k2_pay3 (idxRow2_0 x2) x0 x1 (idxRow2_1 x2) x0 x1) (k2_pay4 (idxRow2_2 x2)) x0 x1 (idxRow2_3 x2) x0 x1

/-- One tile's update of the output block `acc`: in column `j` the row sums of the product block masked by coefficient row `j`, added to it. -/
def tile2 (x0 x1 : Vec F S1024x1024 .bf16) (x2 : Vec F S4x1024 .i32) (x3 : Vec F S4x1024 .f32) (acc : Vec F S1x1024x4 .f32) :
    Vec F S1x1024x4 .f32 :=
  k2_pay1 (tileProd2 x0 x1 x2) (k2_pay6 x3)
    (k2_pay7 (iota .tc S1024x1024 32 [0] iota_S1024x1024_d0_w32)
      (k2_pay3 (idxRow2_0 x2) x0 x1 (idxRow2_1 x2) x0 x1) (k2_pay4 (idxRow2_2 x2)) x0 x1 (idxRow2_3 x2) x0 x1 x3)
    (k2_pay8 (iota .tc S1024x1024 32 [0] iota_S1024x1024_d0_w32)
      (k2_pay3 (idxRow2_0 x2) x0 x1 (idxRow2_1 x2) x0 x1) (k2_pay4 (idxRow2_2 x2)) x0 x1 (idxRow2_3 x2) x0 x1 x3)
    acc

variable (V : (c : Dev nD) → (b : Ref sig .tc) → Buf (Elt F) ((c : Thread nD τ).loc b))
variable {arg2 arg3 : Memref sig .tc .vmem S1024x1024 .bf16} {arg4 : Memref sig .tc .vmem S4x1024 .i32} {arg5 : Memref sig .tc .vmem S4x1024 .f32} {arg6 : Memref sig .tc .vmem S1x1024x4 .f32}
variable (c : Dev nD) (i : grid2.Coords) (harg2 : arg2.IsWhole) (harg3 : arg3.IsWhole) (harg4 : arg4.IsWhole) (harg5 : arg5.IsWhole) (harg6 : arg6.IsWhole)
  (x0 x1 : Vec F S1024x1024 .bf16) (x2 : Vec F S4x1024 .i32) (x3 : Vec F S4x1024 .f32)

/-- In either case the body's last store covers the whole block, so it alone is what the buffer holds: the tile's update of the zero block just stored, or of what was there. -/
theorem kernelRun2_eq :
    (∀ hc0, (kernelRun2_A c i harg2 harg3 harg4 harg5 harg6 x0 x1 x2 x3 hc0).1 = tile2 x0 x1 x2 x3 (k2_pay2 (F := F)))
      ∧ ∀ hc0 xo4, (kernelRun2_B c i harg2 harg3 harg4 harg5 harg6 x0 x1 x2 x3 hc0 xo4).1 = tile2 x0 x1 x2 x3 xo4 := by
  refine ⟨fun _ => ?_, fun _ _ => ?_⟩
  all_goals
    simp only [kernelRun2_A, kernelRun2_B, pieces2_A, pieces2_B]
    rw [View.read_writes_eq_canon _ _ _ (View.cover_of_tiledL _ S1x1024x4.size (by sl_kernel_rfl))]
    sl_unfold_words
    rw [View.canon_cons_unit_zero (S := S1x1024x4) zeros3]
    simp only [View.readAt_eq_ld, harg2.read_unread, harg3.read_unread, harg4.read_unread, harg5.read_unread, harg6.read_unread, View.readCov_unit_zero (S := S1x1024x4) _ zeros3, View.ld_unit_zero (S := S1x1024x4) zeros3, View.ld_unit_zero (S := S1024x1024) zeros2, View.ld_unit_zero (S := S4x1024) zeros2]
    rfl

variable (t : Fin cfg2.N)

theorem outsAt2_reset_eq (h0 : t.val % 30 = 0) :
    outsAt2 V c t.val t.isLt = tile2 (iblk2 V c 0 t) (iblk2 V c 1 t) (iblk2 V c 2 t) (iblk2 V c 3 t) (k2_pay2 (F := F)) :=
  (outsAt2_A V c t h0).trans ((kernelRun2_eq c ..).1 _)

theorem outsAt2_acc_eq (h0 : ¬t.val % 30 = 0) :
    outsAt2 V c t.val t.isLt = tile2 (iblk2 V c 0 t) (iblk2 V c 1 t) (iblk2 V c 2 t) (iblk2 V c 3 t)
      (outsAt2 V c (t.val - 1) (Nat.lt_of_le_of_lt (Nat.sub_le _ _) t.isLt)) :=
  (outsAt2_B V c t h0).trans ((kernelRun2_eq c ..).2 _ _)

end Cert.KernelIdeal.Gen

end
-- ==== Proof.KI.Val2Pay.lean ====
import proofs.«421389_j87436944212793_2_alg».proof.Proof.KI.Val2Pieces
import proofs.«421389_j87436944212793_2_alg».proof.Proof.KI.OneHotPay

noncomputable section

namespace Cert.KernelIdeal.Gen

open Idealize.ShloMosaic Idealize.ShloMosaic.ValueIdx
open scoped BigOperators

/-- Each factor is a gathered feature, and the last step adds the four row sums to what the block held. -/
theorem tile2_apply (x0 x1 : Vec Ideal S1024x1024 .bf16) (x2 : Vec Ideal S4x1024 .i32) (x3 : Vec Ideal S4x1024 .f32)
    (acc : Vec Ideal S1x1024x4 .f32) (hlo : ∀ i, x1 i = 0) (hI : ∀ i, (x2 i : BitVec 32).toNat < 1024) (n : Fin 1024) (j : Fin 4) :
    tile2 x0 x1 x2 x3 acc (ix3 0 n j)
      = acc (ix3 0 n j) + ∑ col : Fin 1024,
          (((Cert.Spec.feat x0 n (x2 (ix2 0 col)) * Cert.Spec.feat x0 n (x2 (ix2 1 col))) * Cert.Spec.feat x0 n (x2 (ix2 2 col)))
            * Cert.Spec.feat x0 n (x2 (ix2 3 col))) * x3 (ix2 j col) := by
  show k0_pay1 (F := Ideal) (tileProd2 x0 x1 x2) (k2_pay6 x3) acc (ix3 0 n j) = _
  refine (OneHot.k0_pay1_apply _ _ acc n j).trans (congrArg (_ + ·) (Finset.sum_congr rfl fun col _ => ?_))
  refine congrArg₂ (· * ·) ?_ (congrFun (shapeCast_self x3 _) _)
  unfold tileProd2 k2_pay5 k2_pay4 k2_pay3
  exact (mulf_apply _ _ _).trans (congrArg₂ (· * ·) ((mulf_apply _ _ _).trans (congrArg₂ (· * ·) ((mulf_apply _ _ _).trans
    (congrArg₂ (· * ·) (OneHot.factor_row_apply x0 x1 x2 0 _ hlo hI _ n col 0 rfl) (OneHot.factor_row_apply x0 x1 x2 1 _ hlo hI _ n col 1 rfl)))
    (OneHot.factor_row_apply x0 x1 x2 2 _ hlo hI _ n col 2 rfl))) (OneHot.factor_row_apply x0 x1 x2 3 _ hlo hI _ n col 3 rfl))

end Cert.KernelIdeal.Gen

end
-- ==== Proof.KI.Val2Fold.lean ====
import proofs.«421389_j87436944212793_2_alg».proof.Proof.KI.Val2Pay
import proofs.«421389_j87436944212793_2_alg».proof.Proof.KI.ValLib

noncomputable section

namespace Cert.KernelIdeal.Gen

open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

abbrev Xhi2 (c : Dev nD) : Vec Ideal S1024x1024 .bf16 := V c main_v13
abbrev Xlo2 (c : Dev nD) : Vec Ideal S1024x1024 .bf16 := V c main_v16
abbrev Iarr2 (c : Dev nD) : Vec Ideal S4x61440 .i32 := V c main_v30
abbrev Marr2 (c : Dev nD) : Vec Ideal S4x61440 .f32 := V c main_v32
abbrev bhi2 (c : Dev nD) (t : Fin cfg2.N) : Vec Ideal S1024x1024 .bf16 := iblk2 V c 0 t
abbrev blo2 (c : Dev nD) (t : Fin cfg2.N) : Vec Ideal S1024x1024 .bf16 := iblk2 V c 1 t
abbrev bidx2 (c : Dev nD) (t : Fin cfg2.N) : Vec Ideal S4x1024 .i32 := iblk2 V c 2 t
abbrev bmu2 (c : Dev nD) (t : Fin cfg2.N) : Vec Ideal S4x1024 .f32 := iblk2 V c 3 t

theorem idx_facts2 : ∀ t : Fin cfg2.N,
    (win2_0.index t 0 = 0 ∧ win2_0.index t 1 = 0) ∧ (win2_2.index t 0 = 0 ∧ win2_2.index t 1 = t.val)
    ∧ (win2_3.index t 0 = 0 ∧ win2_3.index t 1 = t.val)
    ∧ (win2_4.index t 0 = t.val / 30 ∧ win2_4.index t 1 = 0 ∧ win2_4.index t 2 = 0) :=
  (by decide +kernel : ∀ t : Fin grid2.N, _)

/-- Zero outside the arrays' extents, so that the sums below range over plain naturals. -/
def term2 (c : Dev nD) (n j p : ℕ) : EReal :=
  if h : n < 1024 ∧ j < 4 ∧ p < 61440 then
    (((Spec.feat (Xhi2 V c) ⟨n, h.1⟩ (Iarr2 V c (ix2 (0 : Fin 4) (⟨p, h.2.2⟩ : Fin 61440))) * Spec.feat (Xhi2 V c) ⟨n, h.1⟩ (Iarr2 V c (ix2 (1 : Fin 4) (⟨p, h.2.2⟩ : Fin 61440)))) * Spec.feat (Xhi2 V c) ⟨n, h.1⟩ (Iarr2 V c (ix2 (2 : Fin 4) (⟨p, h.2.2⟩ : Fin 61440)))) * Spec.feat (Xhi2 V c) ⟨n, h.1⟩ (Iarr2 V c (ix2 (3 : Fin 4) (⟨p, h.2.2⟩ : Fin 61440))))
      * Marr2 V c (ix2 (⟨j, h.2.1⟩ : Fin 4) (⟨p, h.2.2⟩ : Fin 61440))
  else 0

theorem zero2 (i : S1x1024x4.Idx) : k2_pay2 (F := Ideal) i = 0 := Ideal.ofBits_zero_f32

theorem tile2_blocks (c : Dev nD) (t : Fin cfg2.N) (hlo : ∀ i, Xlo2 V c i = 0)
    (hI : ∀ i, (Iarr2 V c i : BitVec 32).toNat < 1024) (acc : Vec Ideal S1x1024x4 .f32) (i : S1x1024x4.Idx) :
    tile2 (bhi2 V c t) (blo2 V c t) (bidx2 V c t) (bmu2 V c t) acc i
      = acc i + ∑ q ∈ Finset.range 1024, term2 V c (i 1).val (i 2).val (t.val * 1024 + q) := by
  have hN : t.val < 60 := lt_of_lt_of_eq t.isLt (show cfg2.N = 60 from N_2)
  obtain ⟨⟨a0, a1⟩, ⟨b0, b1⟩, ⟨c0, c1⟩, -⟩ := idx_facts2 t
  obtain ⟨u, n, j, rfl⟩ : ∃ (u : Fin 1) (n : Fin 1024) (j : Fin 4), i = ix3 u n j := ⟨i 0, i 1, i 2, eq_ix3 i⟩
  obtain rfl : u = 0 := Subsingleton.elim _ _
  refine (tile2_apply (bhi2 V c t) (blo2 V c t) (bidx2 V c t) (bmu2 V c t) acc (fun _ => hlo _) (fun _ => hI _) n j).trans ?_
  refine congrArg (acc (ix3 0 n j) + ·) ?_
  show _ = ∑ q ∈ Finset.range 1024, term2 V c n.val j.val (t.val * 1024 + q)
  rw [← Fin.sum_univ_eq_sum_range (fun q => term2 V c n.val j.val (t.val * 1024 + q)) 1024]
  refine Finset.sum_congr rfl fun q _ => ?_
  have hq : t.val * 1024 + q.val < 61440 := by have := q.isLt; omega
  have hx : ∀ d : Fin 1024, bhi2 V c t (ix2 n d) = Xhi2 V c (ix2 n d) := fun d => congrArg (Xhi2 V c) (funext fun a => Fin.ext (by
    match a with
    | ⟨0, _⟩ => show win2_0.index t 0 * 1024 + 1 * n.val = n.val; omega
    | ⟨1, _⟩ => show win2_0.index t 1 * 1024 + 1 * d.val = d.val; omega))
  have hi : ∀ r : Fin 4, bidx2 V c t (ix2 r q) = Iarr2 V c (ix2 r ⟨t.val * 1024 + q.val, hq⟩) := fun r => congrArg (Iarr2 V c) (funext fun a => Fin.ext (by
    match a with
    | ⟨0, _⟩ => show win2_2.index t 0 * 4 + 1 * r.val = r.val; omega
    | ⟨1, _⟩ => show win2_2.index t 1 * 1024 + 1 * q.val = t.val * 1024 + q.val; omega))
  have hm : bmu2 V c t (ix2 j q) = Marr2 V c (ix2 j ⟨t.val * 1024 + q.val, hq⟩) := congrArg (Marr2 V c) (funext fun a => Fin.ext (by
    match a with
    | ⟨0, _⟩ => show win2_3.index t 0 * 4 + 1 * j.val = j.val; omega
    | ⟨1, _⟩ => show win2_3.index t 1 * 1024 + 1 * q.val = t.val * 1024 + q.val; omega))
  unfold term2
  rw [dif_pos ⟨n.isLt, j.isLt, hq⟩, hi, hi, hi, hi, hm]
  unfold Spec.feat
  rw [hx, hx, hx, hx]

def outG2 (c : Dev nD) : Vec Ideal S2x1024x4 .f32 :=
  fun i => ∑ p ∈ Finset.range 30720, term2 V c (i 1).val (i 2).val ((i 0).val * 30720 + p)

theorem flushed2_eq (c : Dev nD) (hlo : ∀ i, Xlo2 V c i = 0) (hI : ∀ i, (Iarr2 V c i : BitVec 32).toNat < 1024)
    (t : Fin cfg2.N) (hf : (cfg2.win 4).flush t = true) :
    (dat2 V c).flushed 4 t = ((cfg2.win 4).blk t).view.read (Elt Ideal) (outG2 V c) := by
  have hN : t.val < 60 := lt_of_lt_of_eq t.isLt (show cfg2.N = 60 from N_2)
  have hl : t.val % 30 = 29 := (flush2_4 t).mp hf
  obtain ⟨-, -, -, i0, i1, i2⟩ := idx_facts2 t
  show (cfg2.win 4).cut (grid2.coords t) ((dat2 V c).after 4 t) = _
  rw [after2_4]
  funext y
  obtain ⟨p, n, j, rfl⟩ : ∃ (p : Fin 1) (n : Fin 1024) (j : Fin 4), y = ix3 p n j := ⟨y 0, y 1, y 2, eq_ix3 y⟩
  obtain rfl : p = 0 := Subsingleton.elim _ _
  have hemb : ((cfg2.win 4).blk t).view.emb (ix3 0 n j) = ix3 (⟨t.val / 30, by omega⟩ : Fin 2) n j := by
    funext d; apply Fin.ext
    match d with
    | ⟨0, _⟩ => show win2_4.index t 0 * 1 + 1 * 0 = t.val / 30; omega
    | ⟨1, _⟩ => show win2_4.index t 1 * 1024 + 1 * n.val = n.val; omega
    | ⟨2, _⟩ => show win2_4.index t 2 * 4 + 1 * j.val = j.val; omega
  have key : outsAt2 V c t.val t.isLt (ix3 0 n j) = outG2 V c (ix3 (⟨t.val / 30, by omega⟩ : Fin 2) n j) := by
    rw [ValLib.period_sum (outsAt2 V c)
      (fun n h acc => tile2 (bhi2 V c ⟨n, h⟩) (blo2 V c ⟨n, h⟩) (bidx2 V c ⟨n, h⟩) (bmu2 V c ⟨n, h⟩) acc)
      (k2_pay2 (F := Ideal)) (fun i p => term2 V c (i 1).val (i 2).val p) 30 1024 zero2
      (fun n h h0 => outsAt2_reset_eq V c ⟨n, h⟩ h0) (fun n h h0 => outsAt2_acc_eq V c ⟨n + 1, h⟩ h0)
      (fun n h acc i => tile2_blocks V c ⟨n, h⟩ hlo hI acc i) t.val t.isLt (by omega)]
    show ∑ p ∈ Finset.range 30720, term2 V c n.val j.val (30 * (t.val / 30) * 1024 + p)
      = ∑ p ∈ Finset.range 30720, term2 V c n.val j.val (t.val / 30 * 30720 + p)
    refine Finset.sum_congr rfl fun p _ => ?_
    congr 1; omega
  generalize outsAt2 V c t.val t.isLt = X at key ⊢
  generalize outG2 V c = G at key ⊢
  show X (ix3 0 n j) = G (((cfg2.win 4).blk t).view.emb (ix3 0 n j))
  rw [hemb]; exact key

theorem arrAt2_eq (c : Dev nD) (hlo : ∀ i, Xlo2 V c i = 0) (hI : ∀ i, (Iarr2 V c i : BitVec 32).toNat < 1024) :
    (dat2 V c).arrAt 4 cfg2.N = outG2 V c :=
  (dat2 V c).arrAt_eq_of_cover 4 (outG2 V c) (flushed2_eq V c hlo hI) fun i => by
    have h0 : (i 0).val < 2 := (i 0).isLt
    have h1 : (i 1).val < 1024 := (i 1).isLt
    have h2 : (i 2).val < 4 := (i 2).isLt
    obtain ⟨tt, htt⟩ : ∃ tt : Fin cfg2.N, tt.val = (i 0).val * 30 + 29 :=
      ⟨⟨(i 0).val * 30 + 29, by rw [show cfg2.N = 60 from N_2]; omega⟩, rfl⟩
    refine ⟨tt, (flush2_4 tt).mpr (by omega), ?_⟩
    obtain ⟨-, -, -, i0, i1, i2⟩ := idx_facts2 tt
    show i ∈ ((View.whole main_v33).slice (win2_4.rect tt)).set
    rw [View.set_slice_whole, Rect.mem_set_unit]
    intro a
    match a with
    | ⟨0, _⟩ =>
      show win2_4.index tt 0 * 1 ≤ (i 0 : ℕ) ∧ (i 0 : ℕ) < win2_4.index tt 0 * 1 + 1
      rw [i0]; omega
    | ⟨1, _⟩ =>
      show win2_4.index tt 1 * 1024 ≤ (i 1 : ℕ) ∧ (i 1 : ℕ) < win2_4.index tt 1 * 1024 + 1024
      rw [i1]; omega
    | ⟨2, _⟩ =>
      show win2_4.index tt 2 * 4 ≤ (i 2 : ℕ) ∧ (i 2 : ℕ) < win2_4.index tt 2 * 4 + 4
      rw [i2]; omega

theorem halfCol2_lt (s : Fin 2) (q : Fin 30720) : s.val * 30720 + q.val < 61440 := by
  have := s.isLt; have := q.isLt; omega

theorem arrAt2_apply (c : Dev nD)
    (hlo : ∀ i, (V c main_v16 : S1024x1024.Idx → EReal) i = (0 : EReal))
    (hI : ∀ i, ((V c main_v30 : S4x61440.Idx → BitVec 32) i).toNat < 1024)
    (s : Fin 2) (n : Fin 1024) (j : Fin 4) :
    ((dat2 (F := Ideal) V c).arrAt 4 cfg2.N : S2x1024x4.Idx → EReal) (ix3 s n j)
      = ∑ q : Fin 30720,
          (((Cert.Spec.feat (V c main_v13 : S1024x1024.Idx → EReal) n
                ((V c main_v30 : S4x61440.Idx → BitVec 32) (ix2 0 ⟨s.val * 30720 + q.val, halfCol2_lt s q⟩))
              * Cert.Spec.feat (V c main_v13 : S1024x1024.Idx → EReal) n
                ((V c main_v30 : S4x61440.Idx → BitVec 32) (ix2 1 ⟨s.val * 30720 + q.val, halfCol2_lt s q⟩)))
            * Cert.Spec.feat (V c main_v13 : S1024x1024.Idx → EReal) n
                ((V c main_v30 : S4x61440.Idx → BitVec 32) (ix2 2 ⟨s.val * 30720 + q.val, halfCol2_lt s q⟩)))
          * Cert.Spec.feat (V c main_v13 : S1024x1024.Idx → EReal) n
                ((V c main_v30 : S4x61440.Idx → BitVec 32) (ix2 3 ⟨s.val * 30720 + q.val, halfCol2_lt s q⟩)))
          * (V c main_v32 : S4x61440.Idx → EReal) (ix2 j ⟨s.val * 30720 + q.val, halfCol2_lt s q⟩) := by
  rw [arrAt2_eq V c hlo hI]
  unfold outG2
  show ∑ p ∈ Finset.range 30720, term2 V c n.val j.val (s.val * 30720 + p) = _
  rw [← Fin.sum_univ_eq_sum_range (fun p => term2 V c n.val j.val (s.val * 30720 + p)) 30720]
  refine Finset.sum_congr rfl fun q _ => ?_
  have hq : s.val * 30720 + q.val < 61440 := by have := s.isLt; have := q.isLt; omega
  unfold term2
  rw [dif_pos ⟨n.isLt, j.isLt, hq⟩]

end Cert.KernelIdeal.Gen

end
-- ==== Proof.RefVal.lean ====
import proofs.«421389_j87436944212793_2_alg».proof.Proof.Gen.ReferenceIdeal.Run
import proofs.«421389_j87436944212793_2_alg».proof.Proof.Gen.ReferenceIdeal.Read
import proofs.«421389_j87436944212793_2_alg».proof.Proof.Spec
import Idealize.ShloMosaic.Lib.ValueIdx
import Idealize.ShloMosaic.PureOps.Ideal.Laws
import Idealize.ShloMosaic.Lib.StableHlo.Predicate

noncomputable section

open scoped BigOperators

namespace Cert.ReferenceIdeal.RefValue

open Cert.ReferenceIdeal Cert.ReferenceIdeal.Gen Cert.ReferenceIdeal.Read Cert.Spec
open Idealize.ShloMosaic Idealize.ShloMosaic.StableHlo Idealize.ShloMosaic.ValueIdx

section Gathers
variable {α : Type}

abbrev colDims (A B M : Nat) (wf : GatherDims.WF ⟨2, ![A, B]⟩ ⟨2, ![M, 1]⟩ ⟨2, ![A, M]⟩ [0] [1] [] [1] [] 1 ![A, 1]) :
    GatherDims ⟨2, ![A, B]⟩ ⟨2, ![M, 1]⟩ ⟨2, ![A, M]⟩ where
  offsetDims := [0]
  collapsedSliceDims := [1]
  operandBatchingDims := []
  startIndicesBatchingDims := []
  startIndexMap := [1]
  indexVectorDim := 1
  sliceSizes := ![A, 1]
  wf := wf

theorem gather_col_apply {A B M w : Nat} (hB : 0 < B)
    (wf : GatherDims.WF ⟨2, ![A, B]⟩ ⟨2, ![M, 1]⟩ ⟨2, ![A, M]⟩ [0] [1] [] [1] [] 1 ![A, 1])
    (x : (⟨2, ![A, B]⟩ : Shape).Idx → α) (idx : IVec ⟨2, ![M, 1]⟩ w) (n : Fin A) (q : Fin M) :
    Host.gather (colDims A B M wf) x idx (ix2 n q)
      = x (ix2 n ⟨min (idx (ix2 q (0 : Fin 1))).toInt.toNat (B - 1), by omega⟩) := by
  unfold Host.gather
  congr 1
  funext a
  refine Fin.ext ?_
  show (colDims A B M wf).start (ix2 n q) idx a + (colDims A B M wf).batchCoord (ix2 n q) a
    + (colDims A B M wf).offCoord (ix2 n q) a = _
  rw [GatherDims.batchCoord_eq_zero _ _ _ List.not_mem_nil]
  match a with
  | ⟨0, _⟩ =>
    have hs : (colDims A B M wf).start (ix2 n q) idx (0 : Fin 2) = 0 := by
      unfold GatherDims.start; exact dif_neg (show (0 : Fin 2) ∉ [(1 : Fin 2)] from by decide)
    have ho : (colDims A B M wf).offCoord (ix2 n q) (0 : Fin 2) = n.val := by
      unfold GatherDims.offCoord
      rw [dif_pos ((GatherDims.mem_sKept (colDims A B M wf) (0 : Fin 2)).mpr ⟨show (0 : Fin 2) ∉ [(1 : Fin 2)] from by decide, List.not_mem_nil⟩)]
      rfl
    show (colDims A B M wf).start (ix2 n q) idx (0 : Fin 2) + 0 + (colDims A B M wf).offCoord (ix2 n q) (0 : Fin 2) = n.val
    rw [hs, ho]; omega
  | ⟨1, _⟩ =>
    have ho : (colDims A B M wf).offCoord (ix2 n q) (1 : Fin 2) = 0 :=
      GatherDims.offCoord_eq_zero _ _ _ (fun h => ((GatherDims.mem_sKept _ _).mp h).1 (List.mem_singleton.mpr rfl))
    have hs : (colDims A B M wf).start (ix2 n q) idx (1 : Fin 2) = min (idx (ix2 q (0 : Fin 1))).toInt.toNat (B - 1) := by
      unfold GatherDims.start
      rw [dif_pos (show (1 : Fin 2) ∈ (colDims A B M wf).startIndexMap from List.mem_singleton.mpr rfl)]
      have hsi : (colDims A B M wf).siIdx (ix2 n q) ⟨List.idxOf (1 : Fin 2) (colDims A B M wf).startIndexMap,
          List.idxOf_lt_length_iff.2 (List.mem_singleton.mpr rfl)⟩ = ix2 q (0 : Fin 1) := by
        funext b; refine Fin.ext ?_
        match b with
        | ⟨0, _⟩ => rfl
        | ⟨1, _⟩ => rfl
      rw [hsi]
      rfl
    show (colDims A B M wf).start (ix2 n q) idx (1 : Fin 2) + 0 + (colDims A B M wf).offCoord (ix2 n q) (1 : Fin 2) = min (idx (ix2 q (0 : Fin 1))).toInt.toNat (B - 1)
    rw [hs, ho]; omega

abbrev rowDims (R M A : Nat) (wf : GatherDims.WF ⟨2, ![R, M]⟩ ⟨2, ![A, 1]⟩ ⟨2, ![A, M]⟩ [1] [0] [] [0] [] 1 ![1, M]) :
    GatherDims ⟨2, ![R, M]⟩ ⟨2, ![A, 1]⟩ ⟨2, ![A, M]⟩ where
  offsetDims := [1]
  collapsedSliceDims := [0]
  operandBatchingDims := []
  startIndicesBatchingDims := []
  startIndexMap := [0]
  indexVectorDim := 1
  sliceSizes := ![1, M]
  wf := wf

theorem gather_row_apply {R M A w : Nat} (hR : 0 < R)
    (wf : GatherDims.WF ⟨2, ![R, M]⟩ ⟨2, ![A, 1]⟩ ⟨2, ![A, M]⟩ [1] [0] [] [0] [] 1 ![1, M])
    (x : (⟨2, ![R, M]⟩ : Shape).Idx → α) (idx : IVec ⟨2, ![A, 1]⟩ w) (n : Fin A) (q : Fin M) :
    Host.gather (rowDims R M A wf) x idx (ix2 n q)
      = x (ix2 ⟨min (idx (ix2 n (0 : Fin 1))).toInt.toNat (R - 1), by omega⟩ q) := by
  unfold Host.gather
  congr 1
  funext a
  refine Fin.ext ?_
  show (rowDims R M A wf).start (ix2 n q) idx a + (rowDims R M A wf).batchCoord (ix2 n q) a
    + (rowDims R M A wf).offCoord (ix2 n q) a = _
  rw [GatherDims.batchCoord_eq_zero _ _ _ List.not_mem_nil]
  match a with
  | ⟨0, _⟩ =>
    have ho : (rowDims R M A wf).offCoord (ix2 n q) (0 : Fin 2) = 0 :=
      GatherDims.offCoord_eq_zero _ _ _ (fun h => ((GatherDims.mem_sKept _ _).mp h).1 (List.mem_singleton.mpr rfl))
    have hs : (rowDims R M A wf).start (ix2 n q) idx (0 : Fin 2) = min (idx (ix2 n (0 : Fin 1))).toInt.toNat (R - 1) := by
      unfold GatherDims.start
      rw [dif_pos (show (0 : Fin 2) ∈ (rowDims R M A wf).startIndexMap from List.mem_singleton.mpr rfl)]
      have hsi : (rowDims R M A wf).siIdx (ix2 n q) ⟨List.idxOf (0 : Fin 2) (rowDims R M A wf).startIndexMap,
          List.idxOf_lt_length_iff.2 (List.mem_singleton.mpr rfl)⟩ = ix2 n (0 : Fin 1) := by
        funext b; refine Fin.ext ?_
        match b with
        | ⟨0, _⟩ => rfl
        | ⟨1, _⟩ => rfl
      rw [hsi]
      rfl
    show (rowDims R M A wf).start (ix2 n q) idx (0 : Fin 2) + 0 + (rowDims R M A wf).offCoord (ix2 n q) (0 : Fin 2)
      = min (idx (ix2 n (0 : Fin 1))).toInt.toNat (R - 1)
    rw [hs, ho]; omega
  | ⟨1, _⟩ =>
    have hs : (rowDims R M A wf).start (ix2 n q) idx (1 : Fin 2) = 0 := by
      unfold GatherDims.start; exact dif_neg (show (1 : Fin 2) ∉ [(0 : Fin 2)] from by decide)
    have ho : (rowDims R M A wf).offCoord (ix2 n q) (1 : Fin 2) = q.val := by
      unfold GatherDims.offCoord
      rw [dif_pos ((GatherDims.mem_sKept (rowDims R M A wf) (1 : Fin 2)).mpr
        ⟨show (1 : Fin 2) ∉ [(0 : Fin 2)] from by decide, List.not_mem_nil⟩)]
      rfl
    show (rowDims R M A wf).start (ix2 n q) idx (1 : Fin 2) + 0 + (rowDims R M A wf).offCoord (ix2 n q) (1 : Fin 2) = q.val
    rw [hs, ho]; omega

theorem wrap_keep (w c : BitVec 32) (K : Nat) (hK : K ≤ 2147483648) (h : w.toNat < K) :
    Scalar.select (IntOp.cmpi .slt w 0#32) (IntOp.addi w c) w = w := by
  have hne : ¬ IntOp.cmpi .slt w 0#32 = 1#1 := fun h1 =>
    Nat.not_lt_zero _ ((StableHlo.Predicate.slt_iff_toNat (a := w) (b := 0#32) (by omega) (by decide)).mp h1)
  rw [eq_zero_of_ne_one hne, select_zero]

theorem clamp_keep (w : BitVec 32) (K : Nat) (hK : K ≤ 2147483648) (h : w.toNat < K) :
    min w.toInt.toNat (K - 1) = w.toNat := by
  have hti : w.toInt = w.toNat := StableHlo.Predicate.toInt_eq_toNat_of_lt (by omega)
  rw [hti, Int.toNat_natCast]
  omega

-- An index word below 1024 is not wrapped, and the index it is read at is row `k`, column `q` of the table.
theorem word_of {R M : ℕ} (x : IVec ⟨2, ![R, M]⟩ 32) (i : (⟨2, ![R, M]⟩ : Shape).Idx) (k : Fin R) (q : Fin M) (c : BitVec 32)
    (h : ∀ i, (x i).toNat < 1024) (h0 : i 0 = k) (h1 : (i 1).val = q.val % M) :
    Scalar.select (IntOp.cmpi .slt (x i) 0#32) (IntOp.addi (x i) c) (x i) = x (ix2 k q) := by
  obtain rfl : i = ix2 k q := (eq_ix2 i).trans (congrArg₂ ix2 h0 (Fin.ext (h1.trans (Nat.mod_eq_of_lt q.isLt))))
  exact wrap_keep _ _ 1024 (by decide) (h _)

end Gathers

theorem feat_of_col {M : Nat}
    (wf : GatherDims.WF ⟨2, ![1024, 1024]⟩ ⟨2, ![M, 1]⟩ ⟨2, ![1024, M]⟩ [0] [1] [] [1] [] 1 ![1024, 1])
    (X : (⟨2, ![1024, 1024]⟩ : Shape).Idx → EReal) (idx : IVec ⟨2, ![M, 1]⟩ 32) (w : BitVec 32) (n : Fin 1024) (q : Fin M)
    (hw : idx (ix2 q (0 : Fin 1)) = w) (hlt : w.toNat < 1024) :
    Host.gather (colDims 1024 1024 M wf) X idx (ix2 n q) = feat X n w := by
  rw [gather_col_apply (by decide)]
  refine congrArg X (congrArg (ix2 n) (Fin.ext ?_))
  show min (idx (ix2 q (0 : Fin 1))).toInt.toNat (1024 - 1) = (col w).val
  rw [hw, clamp_keep _ 1024 (by decide) hlt, col_val_of_lt _ hlt]

theorem coef_of_row {M : Nat}
    (wf : GatherDims.WF ⟨2, ![4, M]⟩ ⟨2, ![1024, 1]⟩ ⟨2, ![1024, M]⟩ [1] [0] [] [0] [] 1 ![1, M])
    (Mu : (⟨2, ![4, M]⟩ : Shape).Idx → EReal) (idx : IVec ⟨2, ![1024, 1]⟩ 32) (w : BitVec 32) (n : Fin 1024) (q : Fin M)
    (hw : idx (ix2 n (0 : Fin 1)) = w) (hlt : w.toNat < 4) :
    Host.gather (rowDims 4 M 1024 wf) Mu idx (ix2 n q) = Mu (ix2 (row w) q) := by
  rw [gather_row_apply (by decide)]
  refine congrArg Mu (congrArg (fun r => ix2 r q) (Fin.ext ?_))
  show min (idx (ix2 n (0 : Fin 1))).toInt.toNat (4 - 1) = (row w).val
  rw [hw, clamp_keep _ 4 (by decide) hlt, row_val_of_lt _ hlt]

theorem zero_word : FloatOps.ofBits (F := Ideal) .f32 0x00000000#32 = 0 := Ideal.ofBits_zero_f32

variable (x2 : Vec Ideal S1024x1024 .f32) (x12 : Vec Ideal S1024 .i32) (hsp : ∀ i, (x12 i).toNat < 4) (n : Fin 1024)
include hsp

-- The three polynomial orders wrap the species words by the same operations.
theorem sp_word : val_main_v37 (F := Ideal) x12 (ix2 n (0 : Fin 1)) = x12 (ix1 n) := by
  rw [val_main_v37_apply, val_main_v36_apply, val_main_v33_apply, val_main_v35_apply, val_main_v32_apply, val_main_v34_apply, val_main_c_6_apply, val_main_c_7_apply, eq_ix1 (idx_main_v37 (ix2 n (0 : Fin 1)))]
  exact wrap_keep _ _ 4 (by decide) (hsp _)

theorem e2_apply (x5 : Vec Ideal S2x20000 .i32) (x6 : Vec Ideal S4x20000 .f32) (h5 : ∀ i, (x5 i).toNat < 1024) :
    val_main_v40 (F := Ideal) x2 x5 x6 x12 (ix1 n) = table (p2 x2 n) x5 x6 (row (x12 (ix1 n))) := by
  unfold table
  rw [val_main_v40_apply, val_main_cst_8_apply, zero_word, zero_add]
  refine Finset.sum_congr rfl fun q _ => ?_
  rw [show idx_main_v40 (ix1 n) q = ix2 n q from eq_ix2 _, val_main_v39_apply, val_main_v31_apply]
  have f0 : val_main_v21 (F := Ideal) x2 x5 (ix2 n q) = feat x2 n (x5 (ix2 0 q)) :=
    feat_of_col _ x2 _ _ n q (by
      rw [val_main_v20_apply, val_main_v19_apply, val_main_v16_apply, val_main_v18_apply, val_main_v15_apply, val_main_v17_apply, val_main_c_2_apply, val_main_c_3_apply, val_main_v14_apply, val_main_v13_apply]
      exact word_of x5 _ 0 q _ h5 rfl rfl) (h5 _)
  have f1 : val_main_v30 (F := Ideal) x2 x5 (ix2 n q) = feat x2 n (x5 (ix2 1 q)) :=
    feat_of_col _ x2 _ _ n q (by
      rw [val_main_v29_apply, val_main_v28_apply, val_main_v25_apply, val_main_v27_apply, val_main_v24_apply, val_main_v26_apply, val_main_c_4_apply, val_main_c_5_apply, val_main_v23_apply, val_main_v22_apply]
      exact word_of x5 _ 1 q _ h5 rfl rfl) (h5 _)
  have c : val_main_v38 (F := Ideal) x6 x12 (ix2 n q) = x6 (ix2 (row (x12 (ix1 n))) q) :=
    coef_of_row _ x6 _ _ n q (sp_word x12 hsp n) (hsp _)
  rw [f0, f1, c]
  rfl

theorem e3_apply (x7 : Vec Ideal S3x40000 .i32) (x8 : Vec Ideal S4x40000 .f32) (h7 : ∀ i, (x7 i).toNat < 1024) :
    val_main_v78 (F := Ideal) x2 x7 x8 x12 (ix1 n) = table (p3 x2 n) x7 x8 (row (x12 (ix1 n))) := by
  unfold table
  rw [val_main_v78_apply, val_main_cst_17_apply, zero_word, zero_add]
  refine Finset.sum_congr rfl fun q _ => ?_
  rw [show idx_main_v78 (ix1 n) q = ix2 n q from eq_ix2 _, val_main_v77_apply, val_main_v69_apply, val_main_v59_apply]
  have f0 : val_main_v49 (F := Ideal) x2 x7 (ix2 n q) = feat x2 n (x7 (ix2 0 q)) :=
    feat_of_col _ x2 _ _ n q (by
      rw [val_main_v48_apply, val_main_v47_apply, val_main_v44_apply, val_main_v46_apply, val_main_v43_apply, val_main_v45_apply, val_main_c_9_apply, val_main_c_10_apply, val_main_v42_apply, val_main_v41_apply]
      exact word_of x7 _ 0 q _ h7 rfl rfl) (h7 _)
  have f1 : val_main_v58 (F := Ideal) x2 x7 (ix2 n q) = feat x2 n (x7 (ix2 1 q)) :=
    feat_of_col _ x2 _ _ n q (by
      rw [val_main_v57_apply, val_main_v56_apply, val_main_v53_apply, val_main_v55_apply, val_main_v52_apply, val_main_v54_apply, val_main_c_11_apply, val_main_c_12_apply, val_main_v51_apply, val_main_v50_apply]
      exact word_of x7 _ 1 q _ h7 rfl rfl) (h7 _)
  have f2 : val_main_v68 (F := Ideal) x2 x7 (ix2 n q) = feat x2 n (x7 (ix2 2 q)) :=
    feat_of_col _ x2 _ _ n q (by
      rw [val_main_v67_apply, val_main_v66_apply, val_main_v63_apply, val_main_v65_apply, val_main_v62_apply, val_main_v64_apply, val_main_c_13_apply, val_main_c_14_apply, val_main_v61_apply, val_main_v60_apply]
      exact word_of x7 _ 2 q _ h7 rfl rfl) (h7 _)
  have c : val_main_v76 (F := Ideal) x8 x12 (ix2 n q) = x8 (ix2 (row (x12 (ix1 n))) q) :=
    coef_of_row _ x8 _ _ n q (sp_word x12 hsp n) (hsp _)
  rw [f0, f1, f2, c]
  rfl

theorem e4_apply (x9 : Vec Ideal S4x60000 .i32) (x10 : Vec Ideal S4x60000 .f32) (h9 : ∀ i, (x9 i).toNat < 1024) :
    val_main_v126 (F := Ideal) x2 x9 x10 x12 (ix1 n) = table (p4 x2 n) x9 x10 (row (x12 (ix1 n))) := by
  unfold table
  rw [val_main_v126_apply, val_main_cst_28_apply, zero_word, zero_add]
  refine Finset.sum_congr rfl fun q _ => ?_
  rw [show idx_main_v126 (ix1 n) q = ix2 n q from eq_ix2 _, val_main_v125_apply, val_main_v117_apply, val_main_v107_apply, val_main_v97_apply]
  have f0 : val_main_v87 (F := Ideal) x2 x9 (ix2 n q) = feat x2 n (x9 (ix2 0 q)) :=
    feat_of_col _ x2 _ _ n q (by
      rw [val_main_v86_apply, val_main_v85_apply, val_main_v82_apply, val_main_v84_apply, val_main_v81_apply, val_main_v83_apply, val_main_c_18_apply, val_main_c_19_apply, val_main_v80_apply, val_main_v79_apply]
      exact word_of x9 _ 0 q _ h9 rfl rfl) (h9 _)
  have f1 : val_main_v96 (F := Ideal) x2 x9 (ix2 n q) = feat x2 n (x9 (ix2 1 q)) :=
    feat_of_col _ x2 _ _ n q (by
      rw [val_main_v95_apply, val_main_v94_apply, val_main_v91_apply, val_main_v93_apply, val_main_v90_apply, val_main_v92_apply, val_main_c_20_apply, val_main_c_21_apply, val_main_v89_apply, val_main_v88_apply]
      exact word_of x9 _ 1 q _ h9 rfl rfl) (h9 _)
  have f2 : val_main_v106 (F := Ideal) x2 x9 (ix2 n q) = feat x2 n (x9 (ix2 2 q)) :=
    feat_of_col _ x2 _ _ n q (by
      rw [val_main_v105_apply, val_main_v104_apply, val_main_v101_apply, val_main_v103_apply, val_main_v100_apply, val_main_v102_apply, val_main_c_22_apply, val_main_c_23_apply, val_main_v99_apply, val_main_v98_apply]
      exact word_of x9 _ 2 q _ h9 rfl rfl) (h9 _)
  have f3 : val_main_v116 (F := Ideal) x2 x9 (ix2 n q) = feat x2 n (x9 (ix2 3 q)) :=
    feat_of_col _ x2 _ _ n q (by
      rw [val_main_v115_apply, val_main_v114_apply, val_main_v111_apply, val_main_v113_apply, val_main_v110_apply, val_main_v112_apply, val_main_c_24_apply, val_main_c_25_apply, val_main_v109_apply, val_main_v108_apply]
      exact word_of x9 _ 3 q _ h9 rfl rfl) (h9 _)
  have c : val_main_v124 (F := Ideal) x10 x12 (ix2 n q) = x10 (ix2 (row (x12 (ix1 n))) q) :=
    coef_of_row _ x10 _ _ n q (sp_word x12 hsp n) (hsp _)
  rw [f0, f1, f2, f3, c]
  rfl

end Cert.ReferenceIdeal.RefValue

end
-- ==== Proof.PreFacts.lean ====
import proofs.«421389_j87436944212793_2_alg».proof.Defs
import Idealize.ShloMosaic.Lib.StableHlo.Predicate
import Idealize.ShloMosaic.Lib.ReduceAll
import Idealize.ShloMosaic.Lib.ValueIdx

noncomputable section

namespace Cert.PreFacts

open Idealize.ShloMosaic Idealize.ShloMosaic.ValueIdx Cert.Pre_finite_inputs

instance : Subsingleton S_.Idx := ⟨fun a b => funext fun d => d.elim0⟩

theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  simp only [Ideal.cmp, StableHlo.Predicate.ofBool_eq_one_iff, decide_eq_true_eq] at h
  induction x using EReal.rec with
  | bot => simp at h
  | top => simp at h
  | coe r => exact ⟨r, rfl⟩

theorem toNat_lt (w : BitVec 32) (n : Nat) (hn : n < 2 ^ 31)
    (h : IntOp.andi (IntOp.cmpi .sge w (0#32)) (IntOp.cmpi .slt w (BitVec.ofNat 32 n)) = 1#1) : w.toNat < n := by
  obtain ⟨h0, h1⟩ := IntOp.andi_eq_one.1 h
  rw [IntOp.cmpi_sge] at h0
  rw [IntOp.cmpi_slt] at h1
  have e0 : (0#32 : BitVec 32).toInt = 0 := by decide
  have en : (BitVec.ofNat 32 n).toInt = n := StableHlo.Predicate.toInt_ofNat_small n hn
  rw [e0] at h0
  rw [en] at h1
  have hlt := w.isLt
  have hw : w.toInt = w.toNat := by
    rw [BitVec.toInt_eq_toNat_cond] at h0 ⊢
    split <;> rename_i hc
    · rfl
    · exfalso; rw [if_neg hc] at h0; omega
  rw [hw] at h1
  exact_mod_cast h1

section Decode
variable [Cert.Pre_finite_inputs.Facts]
variable {a0 : FVec Ideal S1024x4 .f32} {a1 : FVec Ideal S1024x64 .f32} {a2 : FVec Ideal S1024x1024 .f32}
  {a3 : FVec Ideal S1 .f32} {a4 : FVec Ideal S4x64 .f32} {a5 : IVec S2x20000 32} {a6 : FVec Ideal S4x20000 .f32}
  {a7 : IVec S3x40000 32} {a8 : FVec Ideal S4x40000 .f32} {a9 : IVec S4x60000 32} {a10 : FVec Ideal S4x60000 .f32}
  {a11 : IVec S1024 32} {a12 : IVec S1024 32}

-- Of the precondition's conjuncts: the feature table is real, every index word names a column, every species word a row.
theorem decode (h : Cert.Pre_finite_inputs.fn (F := Ideal) a0 a1 a2 a3 a4 a5 a6 a7 a8 a9 a10 a11 a12 = fun _ => 1#1) :
    (∀ i, ∃ r : ℝ, a2 i = (r : EReal)) ∧ (∀ i, (a5 i).toNat < 1024) ∧ (∀ i, (a7 i).toNat < 1024)
    ∧ (∀ i, (a9 i).toNat < 1024) ∧ (∀ i, (a12 i).toNat < 4) := by
  have e := congrFun h ix0
  dsimp only [Cert.Pre_finite_inputs.fn, fn_part1, fn_part2, fn_part3, andi] at e
  simp only [IntOp.andi_eq_one] at e
  obtain ⟨⟨⟨⟨⟨⟨⟨⟨⟨⟨⟨-, -⟩, h2⟩, -⟩, -⟩, -⟩, -⟩, -⟩, h5⟩, h7⟩, h9⟩, h12⟩ := e
  exact ⟨fun i => real_of_abs_lt _ (Host.reduce_andi_all _ _ _ _ _ h2 i),
    fun i => toNat_lt _ 1024 (by decide) (Host.reduce_andi_all _ _ _ _ _ h5 i),
    fun i => toNat_lt _ 1024 (by decide) (Host.reduce_andi_all _ _ _ _ _ h7 i),
    fun i => toNat_lt _ 1024 (by decide) (Host.reduce_andi_all _ _ _ _ _ h9 i),
    fun i => toNat_lt _ 4 (by decide) (Host.reduce_andi_all _ _ _ _ _ h12 i)⟩

end Decode

section AtMemory
open Cert.KernelIdeal
variable [Cert.Pre_finite_inputs.Facts]
variable {m : (ℓ : Loc nD τ sig) → Buf (Elt Ideal) ℓ} (hm : Cert.Pre_KernelIdeal m) (c : Dev nD)
include hm

theorem m_x_real : ∀ i, ∃ r : ℝ, m ((c.tc : Thread nD τ).loc main_arg2) i = (r : EReal) := (decode (hm c)).1
theorem m_idx2_lt : ∀ i, (m ((c.tc : Thread nD τ).loc main_arg5) i : BitVec 32).toNat < 1024 := (decode (hm c)).2.1
theorem m_idx3_lt : ∀ i, (m ((c.tc : Thread nD τ).loc main_arg7) i : BitVec 32).toNat < 1024 := (decode (hm c)).2.2.1
theorem m_idx4_lt : ∀ i, (m ((c.tc : Thread nD τ).loc main_arg9) i : BitVec 32).toNat < 1024 := (decode (hm c)).2.2.2.1
theorem m_sp_lt : ∀ i, (m ((c.tc : Thread nD τ).loc main_arg12) i : BitVec 32).toNat < 4 := (decode (hm c)).2.2.2.2

end AtMemory

end Cert.PreFacts

end
-- ==== Proof.Glue.lean ====
import Mathlib.Algebra.BigOperators.Fin
import Mathlib.Algebra.BigOperators.Intervals

open scoped BigOperators

namespace Cert.Glue

variable {α : Type} [AddCommMonoid α]

-- `T + T = M + P` columns summed in two halves; the terms from column `M` on are zero.
theorem halves_pad_fin (N T M P : ℕ) (hN : N = T + T) (hTM : T + T = M + P) (G : Fin N → α)
    (hz : ∀ q : Fin N, M ≤ q.val → G q = 0)
    (h0 : ∀ q : Fin T, 0 * T + q.val < N) (h1 : ∀ q : Fin T, 1 * T + q.val < N) (hM : ∀ q : Fin M, q.val < N) :
    (∑ q : Fin T, G ⟨0 * T + q.val, h0 q⟩) + (∑ q : Fin T, G ⟨1 * T + q.val, h1 q⟩) = ∑ q : Fin M, G ⟨q.val, hM q⟩ := by
  subst hN
  let f : ℕ → α := fun q => if h : q < T + T then G ⟨q, h⟩ else 0
  have e : ∀ q (h : q < T + T), G ⟨q, h⟩ = f q := fun q h => by simp only [f, dif_pos h]
  have : ∑ x ∈ Finset.range P, f (M + x) = 0 := Finset.sum_eq_zero fun x hx => by
    have := Finset.mem_range.mp hx
    simp only [f, dif_pos (show M + x < T + T by omega)]
    exact hz _ (Nat.le_add_right _ _)
  simp only [e, Nat.zero_mul, Nat.zero_add, Nat.one_mul]
  rw [← Finset.sum_range f, ← Finset.sum_range fun q => f (T + q), ← Finset.sum_range f, ← Finset.sum_range_add f T T, hTM,
    Finset.sum_range_add f M P, this, add_zero]

end Cert.Glue
-- ==== Proof.Pad.lean ====
import proofs.«421389_j87436944212793_2_alg».proof.Proof.Spec
import proofs.«421389_j87436944212793_2_alg».proof.Proof.Glue

noncomputable section

open scoped BigOperators

namespace Cert.Spec

open Idealize.ShloMosaic Idealize.ShloMosaic.ValueIdx

-- A padded column's coefficient is zero, so the two half sums over the padded columns are the sum over the real ones.
theorem table_of_padded {k : ℕ} (N T M P : ℕ) (hN : N = T + T) (hTM : T + T = M + P) (A : (Fin k → BitVec 32) → EReal)
    (I : (⟨2, ![k, M]⟩ : Shape).Idx → BitVec 32) (Mu : (⟨2, ![4, M]⟩ : Shape).Idx → EReal)
    (Ip : (⟨2, ![k, N]⟩ : Shape).Idx → BitVec 32) (Mup : (⟨2, ![4, N]⟩ : Shape).Idx → EReal)
    (hI : ∀ (r : Fin k) (q : Fin N), Ip (ix2 r q) = if hq : q.val < M then I (ix2 r ⟨q.val, hq⟩) else 0#32)
    (hMu : ∀ (j : Fin 4) (q : Fin N), Mup (ix2 j q) = if hq : q.val < M then Mu (ix2 j ⟨q.val, hq⟩) else 0)
    (j : Fin 4) (h0 : ∀ q : Fin T, 0 * T + q.val < N) (h1 : ∀ q : Fin T, 1 * T + q.val < N) :
    (∑ q : Fin T, A (fun r => Ip (ix2 r ⟨0 * T + q.val, h0 q⟩)) * Mup (ix2 j ⟨0 * T + q.val, h0 q⟩))
      + (∑ q : Fin T, A (fun r => Ip (ix2 r ⟨1 * T + q.val, h1 q⟩)) * Mup (ix2 j ⟨1 * T + q.val, h1 q⟩))
      = table A I Mu j := by
  have hM : ∀ q : Fin M, q.val < N := fun q => by have := q.isLt; omega
  rw [Cert.Glue.halves_pad_fin N T M P hN hTM (fun q : Fin N => A (fun r => Ip (ix2 r q)) * Mup (ix2 j q))
    (fun q hq => by
      have : Mup (ix2 j q) = 0 := by rw [hMu j q, dif_neg (by omega)]
      simp only [this, mul_zero])
    h0 h1 hM]
  unfold table
  refine Finset.sum_congr rfl fun q _ => ?_
  have hq : (⟨q.val, hM q⟩ : Fin N).val < M := q.isLt
  simp only [hI, hMu, dif_pos hq]

end Cert.Spec

end
-- ==== Proof.Alg.lean ====
import proofs.«421389_j87436944212793_2_alg».proof.Proof.KI.Run
import proofs.«421389_j87436944212793_2_alg».proof.Proof.KI.HostEn
import proofs.«421389_j87436944212793_2_alg».proof.Proof.KI.HostTail
import proofs.«421389_j87436944212793_2_alg».proof.Proof.KI.HostPre
import proofs.«421389_j87436944212793_2_alg».proof.Proof.KI.Val0Fold
import proofs.«421389_j87436944212793_2_alg».proof.Proof.KI.Val1Fold
import proofs.«421389_j87436944212793_2_alg».proof.Proof.KI.Val2Fold
import proofs.«421389_j87436944212793_2_alg».proof.Proof.RefVal
import proofs.«421389_j87436944212793_2_alg».proof.Proof.PreFacts
import proofs.«421389_j87436944212793_2_alg».proof.Proof.Pad
import proofs.«421389_j87436944212793_2_alg».proof.Proof.Gen.Pre_finite_inputs
import proofs.«421389_j87436944212793_2_alg».proof.Proof.Gen.ReferenceIdeal.Run
import proofs.«421389_j87436944212793_2_alg».proof.Proof.Gen.ReferenceIdeal.Read

noncomputable section

namespace Cert.Proof.Alg

open Idealize.ShloMosaic Idealize.ShloMosaic.TcCoe Idealize.ShloMosaic.ValueIdx
open Idealize.SL Idealize.SL.Sem
open Cert.KernelIdeal Cert.KernelIdeal.Gen Cert.PreFacts Cert.Spec Cert.ReferenceIdeal.RefValue Cert.ReferenceIdeal.Read

section
variable {m : (ℓ : Loc nD τ sig) → Buf (Elt Ideal) ℓ} (hm : Cert.Pre_KernelIdeal m) (c : Dev nD)
include hm

-- Each order: the region's output row at the atom's species is two half sums over padded columns, the reference's sum.
theorem e2_eq : eK (sum0 (arr0 m c)) (m ((c : Thread nD τ).loc main_arg12))
      = val_main_v40 (F := Ideal) (xA m c) (i2A m c) (q2A m c) (m ((c.tc : Thread nD τ).loc main_arg12)) := by
  funext i
  obtain ⟨n, rfl⟩ : ∃ n : Fin 1024, i = ix1 n := ⟨i 0, eq_ix1 i⟩
  have hsp := m_sp_lt hm c
  rw [eK_apply _ _ hsp n, sum0_apply, e2_apply _ _ hsp n _ _ (m_idx2_lt hm c)]
  have hlo : ∀ i, (En0 m c main_v16 : S1024x1024.Idx → EReal) i = (0 : EReal) := En0_v16 m c (m_x_real hm c)
  have hI : ∀ i, ((En0 m c main_v18 : S2x20480.Idx → BitVec 32) i).toNat < 1024 := pad_lt _ _ (En0_v18 m c) (m_idx2_lt hm c)
  unfold arr0
  rw [arrAt0_apply (En0 m) c hlo hI 0 n _, arrAt0_apply (En0 m) c hlo hI 1 n _, En0_v13 m c]
  exact table_of_padded 20480 10240 20000 480 rfl rfl (p2 (xA m c) n) (i2A m c) (q2A m c) _ _ (En0_v18 m c) (En0_v20 m c) _ _ _

theorem e3_eq : eK (sum0 (arr1 m c)) (m ((c : Thread nD τ).loc main_arg12))
      = val_main_v78 (F := Ideal) (xA m c) (i3A m c) (q3A m c) (m ((c.tc : Thread nD τ).loc main_arg12)) := by
  funext i
  obtain ⟨n, rfl⟩ : ∃ n : Fin 1024, i = ix1 n := ⟨i 0, eq_ix1 i⟩
  have hsp := m_sp_lt hm c
  rw [eK_apply _ _ hsp n, sum0_apply, e3_apply _ _ hsp n _ _ (m_idx3_lt hm c)]
  have hlo : ∀ i, (En1 m c main_v16 : S1024x1024.Idx → EReal) i = (0 : EReal) := En1_v16 m c (m_x_real hm c)
  have hI : ∀ i, ((En1 m c main_v24 : S3x40960.Idx → BitVec 32) i).toNat < 1024 := pad_lt _ _ (En1_v24 m c) (m_idx3_lt hm c)
  unfold arr1
  rw [arrAt1_apply (En1 m) c hlo hI 0 n _, arrAt1_apply (En1 m) c hlo hI 1 n _, En1_v13 m c]
  exact table_of_padded 40960 20480 40000 960 rfl rfl (p3 (xA m c) n) (i3A m c) (q3A m c) _ _ (En1_v24 m c) (En1_v26 m c) _ _ _

theorem e4_eq : eK (sum0 (arr2 m c)) (m ((c : Thread nD τ).loc main_arg12))
      = val_main_v126 (F := Ideal) (xA m c) (i4A m c) (q4A m c) (m ((c.tc : Thread nD τ).loc main_arg12)) := by
  funext i
  obtain ⟨n, rfl⟩ : ∃ n : Fin 1024, i = ix1 n := ⟨i 0, eq_ix1 i⟩
  have hsp := m_sp_lt hm c
  rw [eK_apply _ _ hsp n, sum0_apply, e4_apply _ _ hsp n _ _ (m_idx4_lt hm c)]
  have hlo : ∀ i, (En2 m c main_v16 : S1024x1024.Idx → EReal) i = (0 : EReal) := En2_v16 m c (m_x_real hm c)
  have hI : ∀ i, ((En2 m c main_v30 : S4x61440.Idx → BitVec 32) i).toNat < 1024 := pad_lt _ _ (En2_v30 m c) (m_idx4_lt hm c)
  unfold arr2
  rw [arrAt2_apply (En2 m) c hlo hI 0 n _, arrAt2_apply (En2 m) c hlo hI 1 n _, En2_v13 m c]
  exact table_of_padded 61440 30720 60000 1440 rfl rfl (p4 (xA m c) n) (i4A m c) (q4A m c) _ _ (En2_v30 m c) (En2_v32 m c) _ _ _

end

theorem algebraic : Cert.algebraic_KernelIdeal_ReferenceIdeal := by
  intro m g m' g' hm hagree
  refine ⟨fun c => V13 m (outs m) c main_v50, run_val m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5, h6, h7, h8, h9, h10, h11, h12⟩ := hagree c
  rw [val_main_v133_eq, h0, h1, h2, h3, h4, h5, h6, h7, h8, h9, h10, h11, h12]
  refine .trans ?_ (main_v50_eq m c).symm
  rw [comp_eq, rad_eq, e2_eq hm c, e3_eq hm c, e4_eq hm c]
  rfl

end Cert.Proof.Alg

end
-- ==== Proof.lean ====
/- Both programs sum, per atom, a composition energy, a radial energy and polynomial energies of orders 2, 3, 4; the kernel's one-hot products select the features the reference indexes. -/
import proofs.«421389_j87436944212793_2_alg».proof.Defs
import proofs.«421389_j87436944212793_2_alg».proof.Proof.Gen.Kernel
import proofs.«421389_j87436944212793_2_alg».proof.Proof.Gen.KernelIdeal
import proofs.«421389_j87436944212793_2_alg».proof.Proof.Gen.ReferenceIdeal
import proofs.«421389_j87436944212793_2_alg».proof.Proof.Gen.ReferenceIdeal.Run
import proofs.«421389_j87436944212793_2_alg».proof.Proof.Gen.ReferenceIdeal.Read
import proofs.«421389_j87436944212793_2_alg».proof.Proof.Gen.Pre_finite_inputs
import proofs.«421389_j87436944212793_2_alg».proof.Proof.K.Asm
import proofs.«421389_j87436944212793_2_alg».proof.Proof.Alg
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    Cert.Proof.Alg.algebraic⟩

end Cert.Proof

end
